-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2x262144 : Shape := ⟨2, ![2, 262144]⟩
abbrev S262144 : Shape := ⟨1, ![262144]⟩
abbrev S16384x2 : Shape := ⟨2, ![16384, 2]⟩
abbrev S16384 : Shape := ⟨1, ![16384]⟩
abbrev S1024 : Shape := ⟨1, ![1024]⟩
abbrev S3x1024x64 : Shape := ⟨3, ![3, 1024, 64]⟩
abbrev S64 : Shape := ⟨1, ![64]⟩
abbrev S2x64 : Shape := ⟨2, ![2, 64]⟩
abbrev S2 : Shape := ⟨1, ![2]⟩
abbrev S_ : Shape := ⟨0, ![]⟩
abbrev S16384x1 : Shape := ⟨2, ![16384, 1]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S262144 : S_.BroadcastsInDim S262144 (![] : Fin 0 → Fin S262144.rank)
  reducesTo_S262144_S_d0 : S262144.ReducesTo [0] S_
  bcast_S_S16384 : S_.BroadcastsInDim S16384 (![] : Fin 0 → Fin S16384.rank)
  reducesTo_S16384_S_d0 : S16384.ReducesTo [0] S_
  bcast_S_S1024 : S_.BroadcastsInDim S1024 (![] : Fin 0 → Fin S1024.rank)
  reducesTo_S1024_S_d0 : S1024.ReducesTo [0] S_
  bcast_S_S3x1024x64 : S_.BroadcastsInDim S3x1024x64 (![] : Fin 0 → Fin S3x1024x64.rank)
  reducesTo_S3x1024x64_S_d0_1_2 : S3x1024x64.ReducesTo [0, 1, 2] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S2x262144 : S_.BroadcastsInDim S2x262144 (![] : Fin 0 → Fin S2x262144.rank)
  reducesTo_S2x262144_S_d0_1 : S2x262144.ReducesTo [0, 1] S_
  slices_S16384x2_S16384x1_0_0 : S16384x2.Slices ![0, 0] S16384x1
  shapeCasts_S16384x1_S16384 : S16384x1.ShapeCasts S16384

variable [Facts]

def fn_part6 {F : FTy → Type} [FloatOps F] (main_v100 : IVec S_ 1) (main_v102 : IVec S64 1) : IVec S_ 1 :=
  let main_c_39 : IVec S_ 1 := constantI S_ 1 1#1
  let main_v103 : IVec S_ 1 := (fun x v => Host.reduce IntOp.andi x v reducesTo_S64_S_d0 h_S_) main_v102 main_c_39
  let main_v104 : IVec S_ 1 := andi main_v100 main_v103
  main_v104

def fn_part5 {F : FTy → Type} [FloatOps F] (main_arg3 : IVec S16384x2 32) (main_arg13 : FVec F S1024 .f32) (main_arg17 : FVec F S64 .f32) (main_v78 : IVec S_ 1) (main_v84 : IVec S_ 1) : IVec S_ 1 :=
  let main_v85 : IVec S_ 1 := andi main_v78 main_v84
  let main_v86 : IVec S16384x1 32 := (extractStridedSlice S16384x1 ![0, 0] · slices_S16384x2_S16384x1_0_0) main_arg3
  let main_v87 : IVec S16384 32 := shapeCast S16384 main_v86 shapeCasts_S16384x1_S16384
  let main_c_33 : IVec S_ 32 := constantI S_ 32 0#32
  let main_v88 : IVec S16384 32 := broadcastInDim S16384 ![] bcast_S_S16384 main_c_33
  let main_v89 : IVec S16384 1 := cmpi .sge main_v87 main_v88
  let main_v90 : IVec S16384x1 32 := (extractStridedSlice S16384x1 ![0, 0] · slices_S16384x2_S16384x1_0_0) main_arg3
  let main_v91 : IVec S16384 32 := shapeCast S16384 main_v90 shapeCasts_S16384x1_S16384
  let main_c_34 : IVec S_ 32 := constantI S_ 32 2048#32
  let main_v92 : IVec S16384 32 := broadcastInDim S16384 ![] bcast_S_S16384 main_c_34
  let main_v93 : IVec S16384 1 := cmpi .slt main_v91 main_v92
  let main_v94 : IVec S16384 1 := andi main_v89 main_v93
  let main_c_35 : IVec S_ 1 := constantI S_ 1 1#1
  let main_v95 : IVec S_ 1 := (fun x v => Host.reduce IntOp.andi x v reducesTo_S16384_S_d0 h_S_) main_v94 main_c_35
  let main_v96 : IVec S_ 1 := andi main_v85 main_v95
  let main_cst_36 : FVec F S_ .f32 := constant S_ .f32 0x00000000#32
  let main_v97 : FVec F S1024 .f32 := broadcastInDim S1024 ![] bcast_S_S1024 main_cst_36
  let main_v98 : IVec S1024 1 := cmpf .oge main_arg13 main_v97
  let main_c_37 : IVec S_ 1 := constantI S_ 1 1#1
  let main_v99 : IVec S_ 1 := (fun x v => Host.reduce IntOp.andi x v reducesTo_S1024_S_d0 h_S_) main_v98 main_c_37
  let main_v100 : IVec S_ 1 := andi main_v96 main_v99
  let main_cst_38 : FVec F S_ .f32 := constant S_ .f32 0x00000000#32
  let main_v101 : FVec F S64 .f32 := broadcastInDim S64 ![] bcast_S_S64 main_cst_38
  let main_v102 : IVec S64 1 := cmpf .oge main_arg17 main_v101
  fn_part6 (F := F) main_v100 main_v102

def fn_part4 {F : FTy → Type} [FloatOps F] (main_arg1 : IVec S2x262144 32) (main_arg3 : IVec S16384x2 32) (main_arg13 : FVec F S1024 .f32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S2x262144 32 := broadcastInDim S2x262144 ![] bcast_S_S2x262144 main_c_30
  let main_v80 : IVec S2x262144 1 := cmpi .sge main_arg1 main_v79
  let main_c_31 : IVec S_ 32 := constantI S_ 32 8192#32
  let main_v81 : IVec S2x262144 32 := broadcastInDim S2x262144 ![] bcast_S_S2x262144 main_c_31
  let main_v82 : IVec S2x262144 1 := cmpi .slt main_arg1 main_v81
  let main_v83 : IVec S2x262144 1 := andi main_v80 main_v82
  let main_c_32 : IVec S_ 1 := constantI S_ 1 1#1
  let main_v84 : IVec S_ 1 := (fun x v => Host.reduce IntOp.andi x v reducesTo_S2x262144_S_d0_1 h_S_) main_v83 main_c_32
  fn_part5 (F := F) main_arg3 main_arg13 main_arg17 main_v78 main_v84

def fn_part3 {F : FTy → Type} [FloatOps F] (main_arg1 : IVec S2x262144 32) (main_arg3 : IVec S16384x2 32) (main_arg13 : FVec F S1024 .f32) (main_arg14 : FVec F S64 .f32) (main_arg15 : FVec F S64 .f32) (main_arg16 : FVec F S64 .f32) (main_arg17 : FVec F S64 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg13
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg3 main_arg13 main_arg16 main_arg17 main_v63 main_v67

def fn_part2 {F : FTy → Type} [FloatOps F] (main_arg1 : IVec S2x262144 32) (main_arg3 : IVec S16384x2 32) (main_arg9 : FVec F S2 .f32) (main_arg10 : FVec F S1024 .f32) (main_arg11 : FVec F S1024 .f32) (main_arg12 : FVec F S1024 .f32) (main_arg13 : FVec F S1024 .f32) (main_arg14 : FVec F S64 .f32) (main_arg15 : FVec F S64 .f32) (main_arg16 : FVec F S64 .f32) (main_arg17 : FVec F S64 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg1 main_arg3 main_arg13 main_arg14 main_arg15 main_arg16 main_arg17 main_v48 main_v49 main_v50

def fn_part1 {F : FTy → Type} [FloatOps F] (main_arg1 : IVec S2x262144 32) (main_arg3 : IVec S16384x2 32) (main_arg6 : FVec F S3x1024x64 .f32) (main_arg7 : FVec F S64 .f32) (main_arg8 : FVec F S2x64 .f32) (main_arg9 : FVec F S2 .f32) (main_arg10 : FVec F S1024 .f32) (main_arg11 : FVec F S1024 .f32) (main_arg12 : FVec F S1024 .f32) (main_arg13 : FVec F S1024 .f32) (main_arg14 : FVec F S64 .f32) (main_arg15 : FVec F S64 .f32) (main_arg16 : FVec F S64 .f32) (main_arg17 : FVec F S64 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S3x1024x64 .f32 := Host.absf main_arg6
  let main_cst_6 : FVec F S_ .f32 := constant S_ .f32 0x7F800000#32
  let main_v20 : FVec F S3x1024x64 .f32 := broadcastInDim S3x1024x64 ![] bcast_S_S3x1024x64 main_cst_6
  let main_v21 : IVec S3x1024x64 1 := cmpf .olt main_v19 main_v20
  let main_c_7 : IVec S_ 1 := constantI S_ 1 1#1
  let main_v22 : IVec S_ 1 := (fun x v => Host.reduce IntOp.andi x v reducesTo_S3x1024x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg1 main_arg3 main_arg9 main_arg10 main_arg11 main_arg12 main_arg13 main_arg14 main_arg15 main_arg16 main_arg17 main_v33

def fn {F : FTy → Type} [FloatOps F] (main_arg0 : FVec F S8192x2048 .f32) (main_arg1 : IVec S2x262144 32) (main_arg2 : FVec F S262144 .f32) (main_arg3 : IVec S16384x2 32) (main_arg4 : FVec F S16384 .f32) (main_arg5 : FVec F S1024 .f32) (main_arg6 : FVec F S3x1024x64 .f32) (main_arg7 : FVec F S64 .f32) (main_arg8 : FVec F S2x64 .f32) (main_arg9 : FVec F S2 .f32) (main_arg10 : FVec F S1024 .f32) (main_arg11 : FVec F S1024 .f32) (main_arg12 : FVec F S1024 .f32) (main_arg13 : FVec F S1024 .f32) (main_arg14 : FVec F S64 .f32) (main_arg15 : FVec F S64 .f32) (main_arg16 : FVec F S64 .f32) (main_arg17 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S16384 .f32 := Host.absf main_arg4
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg3 main_arg6 main_arg7 main_arg8 main_arg9 main_arg10 main_arg11 main_arg12 main_arg13 main_arg14 main_arg15 main_arg16 main_arg17 main_v13 main_v16
-- ==== Kernel.lean ====
abbrev S8192x2048 : Shape := ⟨2, ![8192, 2048]⟩
abbrev S2x262144 : Shape := ⟨2, ![2, 262144]⟩
abbrev S262144 : Shape := ⟨1, ![262144]⟩
abbrev S16384x2 : Shape := ⟨2, ![16384, 2]⟩
abbrev S16384 : Shape := ⟨1, ![16384]⟩
abbrev S1024 : Shape := ⟨1, ![1024]⟩
abbrev S3x1024x64 : Shape := ⟨3, ![3, 1024, 64]⟩
abbrev S64 : Shape := ⟨1, ![64]⟩
abbrev S2x64 : Shape := ⟨2, ![2, 64]⟩
abbrev S2 : Shape := ⟨1, ![2]⟩
abbrev S16384x1 : Shape := ⟨2, ![16384, 1]⟩
abbrev S_ : Shape := ⟨0, ![]⟩
abbrev S2048x1024 : Shape := ⟨2, ![2048, 1024]⟩
abbrev S1x1024 : Shape := ⟨2, ![1, 1024]⟩
abbrev S8192x1024 : Shape := ⟨2, ![8192, 1024]⟩
abbrev S512x2048 : Shape := ⟨2, ![512, 2048]⟩
abbrev S512x1024 : Shape := ⟨2, ![512, 1024]⟩
abbrev S1x262144 : Shape := ⟨2, ![1, 262144]⟩
abbrev S8192 : Shape := ⟨1, ![8192]⟩
abbrev S262144x1 : Shape := ⟨2, ![262144, 1]⟩
abbrev S8192x8192 : Shape := ⟨2, ![8192, 8192]⟩
abbrev S262144x2 : Shape := ⟨2, ![262144, 2]⟩
abbrev S1024x1024 : Shape := ⟨2, ![1024, 1024]⟩
abbrev S1x1024x64 : Shape := ⟨3, ![1, 1024, 64]⟩
abbrev S1024x64 : Shape := ⟨2, ![1024, 64]⟩
abbrev S64x2 : Shape := ⟨2, ![64, 2]⟩
abbrev S1x64 : Shape := ⟨2, ![1, 64]⟩
abbrev S1x2 : Shape := ⟨2, ![1, 2]⟩
abbrev S8192x2 : Shape := ⟨2, ![8192, 2]⟩
abbrev S1024x2 : Shape := ⟨2, ![1024, 2]⟩

abbrev nBuf : Space → Nat
  | .hbm => 129
  | .vmem => 44
  | .smem => 0
  | _ => 0

abbrev hbmTy0_0 (i : Nat) : BufTy := match i % 128 with
  | 0 => ⟨S8192x2048, .f32⟩
  | 1 => ⟨S2x262144, .i32⟩
  | 2 => ⟨S262144, .f32⟩
  | 3 => ⟨S16384x2, .i32⟩
  | 4 => ⟨S16384, .f32⟩
  | 5 => ⟨S1024, .f32⟩
  | 6 => ⟨S3x1024x64, .f32⟩
  | 7 => ⟨S64, .f32⟩
  | 8 => ⟨S2x64, .f32⟩
  | 9 => ⟨S2, .f32⟩
  | 10 => ⟨S1024, .f32⟩
  | 11 => ⟨S1024, .f32⟩
  | 12 => ⟨S1024, .f32⟩
  | 13 => ⟨S1024, .f32⟩
  | 14 => ⟨S64, .f32⟩
  | 15 => ⟨S64, .f32⟩
  | 16 => ⟨S64, .f32⟩
  | 17 => ⟨S64, .f32⟩
  | 18 => ⟨S16384x1, .i32⟩
  | 19 => ⟨S16384, .i32⟩
  | 20 => ⟨S16384x1, .i32⟩
  | 21 => ⟨S16384, .i32⟩
  | 22 => ⟨S_, .f32⟩
  | 23 => ⟨S2048x1024, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x1, .i32⟩
  | 40 => ⟨S16384x2, .i32⟩
  | 41 => ⟨S2048x1024, .f32⟩
  | 42 => ⟨S2048x1024, .bf16⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S8192x1024, .f32⟩
  | 49 => ⟨S1x262144, .i32⟩
  | 50 => ⟨S262144, .i32⟩
  | 51 => ⟨S1x262144, .i32⟩
  | 52 => ⟨S262144, .i32⟩
  | 53 => ⟨S_, .f32⟩
  | 54 => ⟨S8192, .f32⟩
  | 55 => ⟨S262144x1, .i32⟩
  | 56 => ⟨S8192, .f32⟩
  | 57 => ⟨S_, .f32⟩
  | 58 => ⟨S8192, .f32⟩
  | 59 => ⟨S8192, .i1⟩
  | 60 => ⟨S_, .f32⟩
  | 61 => ⟨S8192, .f32⟩
  | 62 => ⟨S8192, .f32⟩
  | 63 => ⟨S8192, .f32⟩
  | 64 => ⟨S_, .f32⟩
  | 65 => ⟨S_, .f32⟩
  | 66 => ⟨S8192, .f32⟩
  | 67 => ⟨S8192, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S262144x1, .i32⟩
  | 76 => ⟨S262144, .f32⟩
  | 77 => ⟨S262144, .f32⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S262144x1, .i32⟩
  | 86 => ⟨S262144, .f32⟩
  | 87 => ⟨S262144, .f32⟩
  | 88 => ⟨S262144, .f32⟩
  | 89 => ⟨S_, .f32⟩
  | 90 => ⟨S8192x8192, .f32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S_, .i32⟩
  | 99 => ⟨S262144, .i32⟩
  | 100 => ⟨S262144, .i1⟩
  | 101 => ⟨S_, .i32⟩
  | 102 => ⟨S262144, .i32⟩
  | 103 => ⟨S262144, .i32⟩
  | 104 => ⟨S262144, .i32⟩
  | 105 => ⟨S262144x1, .i32⟩
  | 106 => ⟨S262144x1, .i32⟩
  | 107 => ⟨S262144x2, .i32⟩
  | 108 => ⟨S8192x8192, .f32⟩
  | 109 => ⟨S8192x8192, .bf16⟩
  | 110 => ⟨S8192x1024, .f32⟩
  | 111 => ⟨S8192x1024, .f32⟩
  | 112 => ⟨S1x1024x64, .f32⟩
  | 113 => ⟨S1024x64, .f32⟩
  | 114 => ⟨S1024x64, .bf16⟩
  | 115 => ⟨S1x1024x64, .f32⟩
  | 116 => ⟨S1024x64, .f32⟩
  | 117 => ⟨S1024x64, .bf16⟩
  | 118 => ⟨S1x1024x64, .f32⟩
  | 119 => ⟨S1024x64, .f32⟩
  | 120 => ⟨S1024x64, .bf16⟩
  | 121 => ⟨S64x2, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S1x2, .f32⟩
  | _ => ⟨S8192x2048, .f32⟩

abbrev hbmTy0_1 (i : Nat) : BufTy := match i % 128 with
  | 0 => ⟨S8192x2, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x64, .bf16⟩
  | .local _ .vmem, ⟨33, _⟩ => ⟨S1024x64, .bf16⟩
  | .local _ .vmem, ⟨34, _⟩ => ⟨S1024x64, .bf16⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S64x2, .f32⟩
  | .local _ .vmem, ⟨41, _⟩ => ⟨S1x2, .f32⟩
  | .local _ .vmem, ⟨42, _⟩ => ⟨S1024x2, .f32⟩
  | .local _ .vmem, ⟨43, _⟩ => ⟨S1024x2, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_14 : Ref sig .tc := ⟨.hbm, 98, rfl⟩
abbrev main_v62 : Ref sig .tc := ⟨.hbm, 99, rfl⟩
abbrev main_v63 : Ref sig .tc := ⟨.hbm, 100, rfl⟩
abbrev main_c_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg13_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem11_0 : DmaSem sig := 38
abbrev cc3_sem12_0 : DmaSem sig := 39
abbrev cc3_sem13_0 : DmaSem sig := 40
abbrev cc3_sem13_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x2 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x2 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S1024x2 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S2048x1024 : S_.BroadcastsInDim S2048x1024 (![] : Fin 0 → Fin S2048x1024.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bitsLt_bf16_f32 : FTy.bits .bf16 < FTy.bits .f32
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192 : S_.BroadcastsInDim S8192 (![] : Fin 0 → Fin S8192.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S8192x8192 : S_.BroadcastsInDim S8192x8192 (![] : Fin 0 → Fin S8192x8192.rank)
  concatenates_S262144x1_S262144x1_S262144x2_d1 : Shape.Concatenates [S262144x1, S262144x1] S262144x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S3x1024x64_S1x1024x64_0_0_0 : S3x1024x64.Slices ![0, 0, 0] S1x1024x64
  shapeCasts_S1x1024x64_S1024x64 : S1x1024x64.ShapeCasts S1024x64
  slices_S3x1024x64_S1x1024x64_1_0_0 : S3x1024x64.Slices ![1, 0, 0] S1x1024x64
  slices_S3x1024x64_S1x1024x64_2_0_0 : S3x1024x64.Slices ![2, 0, 0] S1x1024x64
  transposes_S2x64_S64x2_1_0 : S2x64.Transposes [1, 0] S64x2
  shapeCasts_S64_S1x64 : S64.ShapeCasts S1x64
  shapeCasts_S2_S1x2 : S2.ShapeCasts S1x2
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S2048x1024_S16384x2_S16384_n_01_01_1_wf : ScatterDims.WF S2048x1024 S16384x2 S16384 [] [0, 1] [0, 1] 1
  dot_S512x2048_S2048x1024_S512x1024_1_0_0_1_n_n_wf : DotDims.WF S512x2048 S2048x1024 S512x1024 [1] [0] [0] [1] [] []
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S1024x1024_S1024x1024_S1024x1024_1_0_0_1_n_n_wf : DotDims.WF S1024x1024 S1024x1024 S1024x1024 [1] [0] [0] [1] [] []
  dot_S1024x1024_S1024x64_S1024x64_1_0_0_1_n_n_wf : DotDims.WF S1024x1024 S1024x64 S1024x64 [1] [0] [0] [1] [] []
  dot_S1024x64_S64x2_S1024x2_1_0_0_1_n_n_wf : DotDims.WF S1024x64 S64x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .f32 = 32 ∨ (Rect.block (s := S8192x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .f32 = 32 ∨ (Rect.block (s := S8192x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .f32 = 32 ∨ (Rect.block (s := S8192x1024) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x1024.size a
  hwx3_1 : ∀ i : grid3.Coords, EltTy.bits .f32 = 32 ∨ (Rect.block (s := S8192x1024) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x1024.size a
  hwx3_2 : ∀ i : grid3.Coords, EltTy.bits .f32 = 32 ∨ (Rect.block (s := S8192x1024) S1024x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S1024x64.size a
  hwx3_3 : ∀ i : grid3.Coords, EltTy.bits .bf16 = 32 ∨ (Rect.block (s := S1024x64) S1024x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S1024x64.size a
  hwx3_4 : ∀ i : grid3.Coords, EltTy.bits .bf16 = 32 ∨ (Rect.block (s := S1024x64) S1024x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x64.size a ≤ S1024x64.size a
  hwx3_5 : ∀ i : grid3.Coords, EltTy.bits .bf16 = 32 ∨ (Rect.block (s := S1024x64) S1024x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x2.size a ≤ S64x2.size a
  hwx3_11 : ∀ i : grid3.Coords, EltTy.bits .f32 = 32 ∨ (Rect.block (s := S64x2) S64x2.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x2.size a ≤ S1x2.size a
  hwx3_12 : ∀ i : grid3.Coords, EltTy.bits .f32 = 32 ∨ (Rect.block (s := S1x2) S1x2.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S1024x2.size a ≤ S8192x2.size a
  hwx3_13 : ∀ i : grid3.Coords, EltTy.bits .f32 = 32 ∨ (Rect.block (s := S8192x2) S1024x2.size (cc3_transform_13 i) (hinb3_13 i)).WholeWords (EltTy.packing .f32)

variable [Facts₀]

def scatter_S2048x1024_S16384x2_S16384_n_01_01_1 : ScatterDims S2048x1024 S16384x2 S16384 where
  updateWindowDims := []
  insertedWindowDims := [0, 1]
  scatterDimsToOperandDims := [0, 1]
  indexVectorDim := 1
  wf := scatter_S2048x1024_S16384x2_S16384_n_01_01_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v71) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v71) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v25) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1024x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1024x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1024x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v85) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v86) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v87) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v88) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v83) S64x2.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v89) S1x2.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v90) S1024x2.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S8192x2048 : Shape := ⟨2, ![8192, 2048]⟩
abbrev S2x262144 : Shape := ⟨2, ![2, 262144]⟩
abbrev S262144 : Shape := ⟨1, ![262144]⟩
abbrev S16384x2 : Shape := ⟨2, ![16384, 2]⟩
abbrev S16384 : Shape := ⟨1, ![16384]⟩
abbrev S1024 : Shape := ⟨1, ![1024]⟩
abbrev S3x1024x64 : Shape := ⟨3, ![3, 1024, 64]⟩
abbrev S64 : Shape := ⟨1, ![64]⟩
abbrev S2x64 : Shape := ⟨2, ![2, 64]⟩
abbrev S2 : Shape := ⟨1, ![2]⟩
abbrev S16384x1 : Shape := ⟨2, ![16384, 1]⟩
abbrev S_ : Shape := ⟨0, ![]⟩
abbrev S8192x16384 : Shape := ⟨2, ![8192, 16384]⟩
abbrev S1x16384 : Shape := ⟨2, ![1, 16384]⟩
abbrev S8192x1024 : Shape := ⟨2, ![8192, 1024]⟩
abbrev S1x1024 : Shape := ⟨2, ![1, 1024]⟩
abbrev S1x262144 : Shape := ⟨2, ![1, 262144]⟩
abbrev S8192 : Shape := ⟨1, ![8192]⟩
abbrev S262144x1 : Shape := ⟨2, ![262144, 1]⟩
abbrev S1x1024x64 : Shape := ⟨3, ![1, 1024, 64]⟩
abbrev S1024x64 : Shape := ⟨2, ![1024, 64]⟩
abbrev S8192x64 : Shape := ⟨2, ![8192, 64]⟩
abbrev S262144x1024 : Shape := ⟨2, ![262144, 1024]⟩
abbrev S1x64 : Shape := ⟨2, ![1, 64]⟩
abbrev S64x2 : Shape := ⟨2, ![64, 2]⟩
abbrev S8192x2 : Shape := ⟨2, ![8192, 2]⟩
abbrev S1x2 : Shape := ⟨2, ![1, 2]⟩

abbrev nBuf : Space → Nat
  | .hbm => 177
  | .vmem => 0
  | .smem => 0
  | _ => 0

abbrev hbmTy0_0 (i : Nat) : BufTy := match i % 128 with
  | 0 => ⟨S8192x2048, .f32⟩
  | 1 => ⟨S2x262144, .i32⟩
  | 2 => ⟨S262144, .f32⟩
  | 3 => ⟨S16384x2, .i32⟩
  | 4 => ⟨S16384, .f32⟩
  | 5 => ⟨S1024, .f32⟩
  | 6 => ⟨S3x1024x64, .f32⟩
  | 7 => ⟨S64, .f32⟩
  | 8 => ⟨S2x64, .f32⟩
  | 9 => ⟨S2, .f32⟩
  | 10 => ⟨S1024, .f32⟩
  | 11 => ⟨S1024, .f32⟩
  | 12 => ⟨S1024, .f32⟩
  | 13 => ⟨S1024, .f32⟩
  | 14 => ⟨S64, .f32⟩
  | 15 => ⟨S64, .f32⟩
  | 16 => ⟨S64, .f32⟩
  | 17 => ⟨S64, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S8192x16384, .f32⟩
  | 29 => ⟨S1x16384, .f32⟩
  | 30 => ⟨S8192x16384, .f32⟩
  | 31 => ⟨S8192x16384, .f32⟩
  | 32 => ⟨S_, .f32⟩
  | 33 => ⟨S8192x1024, .f32⟩
  | 34 => ⟨S16384x1, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S8192x1024, .f32⟩
  | 45 => ⟨S1x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S_, .f32⟩
  | 55 => ⟨S1024, .f32⟩
  | 56 => ⟨S1024, .f32⟩
  | 57 => ⟨S1024, .f32⟩
  | 58 => ⟨S1024, .f32⟩
  | 59 => ⟨S1x1024, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S1x262144, .i32⟩
  | 66 => ⟨S262144, .i32⟩
  | 67 => ⟨S1x262144, .i32⟩
  | 68 => ⟨S262144, .i32⟩
  | 69 => ⟨S_, .f32⟩
  | 70 => ⟨S8192, .f32⟩
  | 71 => ⟨S262144x1, .i32⟩
  | 72 => ⟨S8192, .f32⟩
  | 73 => ⟨S_, .f32⟩
  | 74 => ⟨S8192, .f32⟩
  | 75 => ⟨S8192, .i1⟩
  | 76 => ⟨S_, .f32⟩
  | 77 => ⟨S8192, .f32⟩
  | 78 => ⟨S8192, .f32⟩
  | 79 => ⟨S8192, .f32⟩
  | 80 => ⟨S_, .f32⟩
  | 81 => ⟨S_, .f32⟩
  | 82 => ⟨S8192, .f32⟩
  | 83 => ⟨S8192, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S262144x1, .i32⟩
  | 92 => ⟨S262144, .f32⟩
  | 93 => ⟨S262144, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S262144, .f32⟩
  | 103 => ⟨S262144, .f32⟩
  | 104 => ⟨S262144, .f32⟩
  | 105 => ⟨S1x1024x64, .f32⟩
  | 106 => ⟨S1024x64, .f32⟩
  | 107 => ⟨S8192x64, .f32⟩
  | 108 => ⟨S262144x1, .f32⟩
  | 109 => ⟨S_, .i32⟩
  | 110 => ⟨S262144, .i32⟩
  | 111 => ⟨S262144, .i1⟩
  | 112 => ⟨S_, .i32⟩
  | 113 => ⟨S262144, .i32⟩
  | 114 => ⟨S262144, .i32⟩
  | 115 => ⟨S262144, .i32⟩
  | 116 => ⟨S262144x1, .i32⟩
  | 117 => ⟨S262144x1024, .f32⟩
  | 118 => ⟨S262144x1024, .f32⟩
  | 119 => ⟨S262144x1024, .f32⟩
  | 120 => ⟨S_, .f32⟩
  | 121 => ⟨S8192x1024, .f32⟩
  | 122 => ⟨S262144x1, .i32⟩
  | 123 => ⟨S8192x1024, .f32⟩
  | 124 => ⟨S1x1024x64, .f32⟩
  | 125 => ⟨S1024x64, .f32⟩
  | 126 => ⟨S8192x64, .f32⟩
  | 127 => ⟨S8192x64, .f32⟩
  | _ => ⟨S8192x2048, .f32⟩

abbrev hbmTy0_1 (i : Nat) : BufTy := match i % 128 with
  | 0 => ⟨S262144x1, .f32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S262144x1024, .f32⟩
  | 10 => ⟨S262144x1024, .f32⟩
  | 11 => ⟨S262144x1024, .f32⟩
  | 12 => ⟨S_, .f32⟩
  | 13 => ⟨S8192x1024, .f32⟩
  | 14 => ⟨S262144x1, .i32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S1x1024x64, .f32⟩
  | 21 => ⟨S1024x64, .f32⟩
  | 22 => ⟨S8192x64, .f32⟩
  | 23 => ⟨S8192x64, .f32⟩
  | 24 => ⟨S1x64, .f32⟩
  | 25 => ⟨S8192x64, .f32⟩
  | 26 => ⟨S8192x64, .f32⟩
  | 27 => ⟨S_, .f32⟩
  | 28 => ⟨S8192x64, .f32⟩
  | 29 => ⟨S8192x64, .f32⟩
  | 30 => ⟨S1x64, .f32⟩
  | 31 => ⟨S8192x64, .f32⟩
  | 32 => ⟨S8192x64, .f32⟩
  | 33 => ⟨S_, .f32⟩
  | 34 => ⟨S64, .f32⟩
  | 35 => ⟨S64, .f32⟩
  | 36 => ⟨S64, .f32⟩
  | 37 => ⟨S64, .f32⟩
  | 38 => ⟨S1x64, .f32⟩
  | 39 => ⟨S8192x64, .f32⟩
  | 40 => ⟨S8192x64, .f32⟩
  | 41 => ⟨S1x64, .f32⟩
  | 42 => ⟨S8192x64, .f32⟩
  | 43 => ⟨S8192x64, .f32⟩
  | 44 => ⟨S64x2, .f32⟩
  | 45 => ⟨S8192x2, .f32⟩
  | 46 => ⟨S1x2, .f32⟩
  | 47 => ⟨S8192x2, .f32⟩
  | 48 => ⟨S8192x2, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call0_cst : Ref sig .tc := ⟨.hbm, 48, rfl⟩
abbrev main_call0_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_call1_v0 : Ref sig .tc := ⟨.hbm, 81, rfl⟩
abbrev main_call1_v1 : Ref sig .tc := ⟨.hbm, 82, rfl⟩
abbrev main_v51 : Ref sig .tc := ⟨.hbm, 83, rfl⟩
abbrev main_c_8 : Ref sig .tc := ⟨.hbm, 84, rfl⟩
abbrev main_v52 : Ref sig .tc := ⟨.hbm, 85, rfl⟩
abbrev main_v53 : Ref sig .tc := ⟨.hbm, 86, rfl⟩
abbrev main_c_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_10 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_12 : Ref sig .tc := ⟨.hbm, 109, rfl⟩
abbrev main_v73 : Ref sig .tc := ⟨.hbm, 110, rfl⟩
abbrev main_v74 : Ref sig .tc := ⟨.hbm, 111, rfl⟩
abbrev main_c_13 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_15 : Ref sig .tc := ⟨.hbm, 129, rfl⟩
abbrev main_v90 : Ref sig .tc := ⟨.hbm, 130, rfl⟩
abbrev main_v91 : Ref sig .tc := ⟨.hbm, 131, rfl⟩
abbrev main_c_16 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_17 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_18 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_call2_cst : Ref sig .tc := ⟨.hbm, 155, rfl⟩
abbrev main_call2_v0 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_19 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  bcast_S_S8192x1024 : S_.BroadcastsInDim S8192x1024 (![] : Fin 0 → Fin S8192x1024.rank)
  slices_S16384x2_S16384x1_0_1 : S16384x2.Slices ![0, 1] S16384x1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S1024 : S_.BroadcastsInDim S1024 (![] : Fin 0 → Fin S1024.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192 : S_.BroadcastsInDim S8192 (![] : Fin 0 → Fin S8192.rank)
  bcast_S262144_S262144x1_0 : S262144.BroadcastsInDim S262144x1 (![0] : Fin 1 → Fin S262144x1.rank)
  bcast_S_S262144 : S_.BroadcastsInDim S262144 (![] : Fin 0 → Fin S262144.rank)
  slices_S3x1024x64_S1x1024x64_0_0_0 : S3x1024x64.Slices ![0, 0, 0] S1x1024x64
  shapeCasts_S1x1024x64_S1024x64 : S1x1024x64.ShapeCasts S1024x64
  bcast_S262144x1_S262144x1024_0_1 : S262144x1.BroadcastsInDim S262144x1024 (![0, 1] : Fin 2 → Fin S262144x1024.rank)
  slices_S3x1024x64_S1x1024x64_1_0_0 : S3x1024x64.Slices ![1, 0, 0] S1x1024x64
  slices_S3x1024x64_S1x1024x64_2_0_0 : S3x1024x64.Slices ![2, 0, 0] S1x1024x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S_S64 : S_.BroadcastsInDim S64 (![] : Fin 0 → Fin S64.rank)
  transposes_S2x64_S64x2_1_0 : S2x64.Transposes [1, 0] S64x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  gather_S8192x2048_S16384x1_S8192x16384_0_1_n_n_1_1_81921_wf : GatherDims.WF S8192x2048 S16384x1 S8192x16384 [0] [1] [] [1] [] 1 ![8192, 1]
  scatter_S8192x1024_S16384x1_S8192x16384_0_1_1_1_wf : ScatterDims.WF S8192x1024 S16384x1 S8192x16384 [0] [1] [1] 1
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  dot_S8192x1024_S1024x64_S8192x64_1_0_0_1_n_n_wf : DotDims.WF S8192x1024 S1024x64 S8192x64 [1] [0] [0] [1] [] []
  gather_S8192x1024_S262144x1_S262144x1024_1_0_n_n_0_1_11024_wf : GatherDims.WF S8192x1024 S262144x1 S262144x1024 [1] [0] [] [0] [] 1 ![1, 1024]
  scatter_S8192x1024_S262144x1_S262144x1024_1_0_0_1_wf : ScatterDims.WF S8192x1024 S262144x1 S262144x1024 [1] [0] [0] 1
  dot_S8192x64_S64x2_S8192x2_1_0_0_1_n_n_wf : DotDims.WF S8192x64 S64x2 S8192x2 [1] [0] [0] [1] [] []

variable [Facts₀]

def gather_S8192x2048_S16384x1_S8192x16384_0_1_n_n_1_1_81921 : GatherDims S8192x2048 S16384x1 S8192x16384 where
  offsetDims := [0]
  collapsedSliceDims := [1]
  operandBatchingDims := []
  startIndicesBatchingDims := []
  startIndexMap := [1]
  indexVectorDim := 1
  sliceSizes := ![8192, 1]
  wf := gather_S8192x2048_S16384x1_S8192x16384_0_1_n_n_1_1_81921_wf
def scatter_S8192x1024_S16384x1_S8192x16384_0_1_1_1 : ScatterDims S8192x1024 S16384x1 S8192x16384 where
  updateWindowDims := [0]
  insertedWindowDims := [1]
  scatterDimsToOperandDims := [1]
  indexVectorDim := 1
  wf := scatter_S8192x1024_S16384x1_S8192x16384_0_1_1_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def gather_S8192x1024_S262144x1_S262144x1024_1_0_n_n_0_1_11024 : GatherDims S8192x1024 S262144x1 S262144x1024 where
  offsetDims := [1]
  collapsedSliceDims := [0]
  operandBatchingDims := []
  startIndicesBatchingDims := []
  startIndexMap := [0]
  indexVectorDim := 1
  sliceSizes := ![1, 1024]
  wf := gather_S8192x1024_S262144x1_S262144x1024_1_0_n_n_0_1_11024_wf
def scatter_S8192x1024_S262144x1_S262144x1024_1_0_0_1 : ScatterDims S8192x1024 S262144x1 S262144x1024 where
  updateWindowDims := [1]
  insertedWindowDims := [0]
  scatterDimsToOperandDims := [0]
  indexVectorDim := 1
  wf := scatter_S8192x1024_S262144x1_S262144x1024_1_0_0_1_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

class Facts : Prop extends Facts₀ where

variable [Facts]
-- ==== Proof.RefGen.lean ====
import proofs.«410350_j46755013984839_3_alg».proof.Proof.Gen.ReferenceIdeal.Run
import proofs.«410350_j46755013984839_3_alg».proof.Proof.Gen.ReferenceIdeal.Read
-- ==== Proof.Spec.lean ====
import Idealize.ShloMosaic.PureOps.Ideal
import Mathlib.Data.EReal.Operations
import Mathlib.Algebra.BigOperators.Group.Finset.Basic

noncomputable section

namespace Cert.Spec

open Idealize.ShloMosaic
open scoped BigOperators

def eps : EReal := Ideal.ofBits .f32 0x3727C5AC#32

def two : EReal := Ideal.ofBits .f32 0x40000000#32

def wrap (size : ℤ) (v : ℤ) : ℤ := if v < 0 then v + size else v

def clampFin (n : ℕ) (hn : 0 < n) (v : ℤ) : Fin n := ⟨min v.toNat (n - 1), by omega⟩

def scale (g var : EReal) : EReal := g * Ideal.rsqrt (var + eps)

def bnK (a g be mu var : EReal) : EReal := a * scale g var + (be - mu * scale g var)

def bnR (a g be mu var : EReal) : EReal := (a - mu) * scale g var + be

section Layers

def T0 (x : Fin 8192 → Fin 2048 → EReal) (wd : Fin 2048 → Fin 1024 → EReal) (b g be mu var : Fin 1024 → EReal)
    (n : Fin 8192) (o : Fin 1024) : EReal :=
  bnK (max ((∑ i : Fin 2048, x n i * wd i o) + b o) 0) (g o) (be o) (mu o) (var o)

def P1 (A : Fin 8192 → Fin 8192 → EReal) (z : Fin 8192 → Fin 1024 → EReal) (n : Fin 8192) (f : Fin 1024) : EReal :=
  ∑ j : Fin 8192, A n j * z j f

def P2 (A : Fin 8192 → Fin 8192 → EReal) (z r : Fin 8192 → Fin 1024 → EReal) (n : Fin 8192) (f : Fin 1024) : EReal :=
  two * (∑ j : Fin 8192, A n j * z j f) - r n f

def T3 (t0 t1 t2 : Fin 8192 → Fin 1024 → EReal) (c0 c1 c2 : Fin 1024 → Fin 64 → EReal) (cb g be mu var : Fin 64 → EReal)
    (lwt : Fin 64 → Fin 2 → EReal) (lb : Fin 2 → EReal) (n : Fin 8192) (q : Fin 2) : EReal :=
  (∑ f : Fin 64,
      bnK (max (((((∑ o : Fin 1024, t0 n o * c0 o f) + (∑ o : Fin 1024, t1 n o * c1 o f))
          + (∑ o : Fin 1024, t2 n o * c2 o f)) + cb f)) 0) (g f) (be f) (mu f) (var f) * lwt f q) + lb q
end Layers

section Inputs
variable (x : Fin 8192 → Fin 2048 → EReal) (ei : Fin 2 → Fin 262144 → ℤ) (ew : Fin 262144 → EReal)
  (sm : Fin 16384 → Fin 2 → ℤ) (w : Fin 16384 → EReal) (b : Fin 1024 → EReal)
  (cw : Fin 3 → Fin 1024 → Fin 64 → EReal) (cb : Fin 64 → EReal) (lw : Fin 2 → Fin 64 → EReal) (lb : Fin 2 → EReal)
  (gS beS muS varS : Fin 1024 → EReal) (g1 be1 mu1 var1 : Fin 64 → EReal)

def deg (j : Fin 8192) : EReal := 0 + ∑ e ∈ Finset.univ.filter (fun e : Fin 262144 => ei 0 e = (j.val : ℤ)), ew e

def dinv (j : Fin 8192) : EReal := if 0 < deg ei ew j then Ideal.rsqrt (max (deg ei ew j) eps) else 0

def node (v : ℤ) : Fin 8192 := clampFin 8192 (by norm_num) (wrap 8192 v)

def nw (e : Fin 262144) : EReal := -((dinv ei ew (node (ei 0 e)) * ew e) * dinv ei ew (node (ei 1 e)))

def WdK (i : Fin 2048) (o : Fin 1024) : EReal :=
  0 + ∑ c ∈ Finset.univ.filter (fun c : Fin 16384 => wrap 2048 (sm c 0) = (i.val : ℤ) ∧ wrap 1024 (sm c 1) = (o.val : ℤ)), w c

def AKg (nwf : Fin 262144 → EReal) (j i : Fin 8192) : EReal :=
  0 + ∑ e ∈ Finset.univ.filter (fun e : Fin 262144 => wrap 8192 (ei 1 e) = (j.val : ℤ) ∧ wrap 8192 (ei 0 e) = (i.val : ℤ)), nwf e

def AK : Fin 8192 → Fin 8192 → EReal := AKg ei (nw ei ew)

def outKg (t0 : Fin 8192 → Fin 1024 → EReal) (A : Fin 8192 → Fin 8192 → EReal) : Fin 8192 → Fin 2 → EReal :=
  T3 t0 (P1 A t0) (P2 A (P1 A t0) t0) (cw 0) (cw 1) (cw 2) cb g1 be1 mu1 var1 (fun f q => lw q f) lb
def tx0K : Fin 8192 → Fin 1024 → EReal := T0 x (WdK sm w) b gS beS muS varS

def outK : Fin 8192 → Fin 2 → EReal :=
  outKg cw cb lw lb g1 be1 mu1 var1 (tx0K x sm w b gS beS muS varS) (AK ei ew)

def hR (n : Fin 8192) (o : Fin 1024) : EReal :=
  0 + ∑ c ∈ Finset.univ.filter (fun c : Fin 16384 => wrap 1024 (sm c 1) = (o.val : ℤ)),
    x n (clampFin 2048 (by norm_num) (wrap 2048 (sm c 0))) * w c
def tx0R (n : Fin 8192) (o : Fin 1024) : EReal :=
  bnR (max (hR x sm w n o + b o) 0) (gS o) (beS o) (muS o) (varS o)

def lhatRg (nwf : Fin 262144 → EReal) (z : Fin 8192 → Fin 1024 → EReal) (j : Fin 8192) (f : Fin 1024) : EReal :=
  0 + ∑ e ∈ Finset.univ.filter (fun e : Fin 262144 => ei 1 e = (j.val : ℤ)), nwf e * z (node (ei 0 e)) f

def outRg (t0 : Fin 8192 → Fin 1024 → EReal) (nwf : Fin 262144 → EReal) (n : Fin 8192) (q : Fin 2) : EReal :=
  (∑ f : Fin 64,
      bnR (max (((((∑ o : Fin 1024, t0 n o * cw 0 o f)
          + (∑ o : Fin 1024, lhatRg ei nwf t0 n o * cw 1 o f))
          + (∑ o : Fin 1024, (two * lhatRg ei nwf (lhatRg ei nwf t0) n o - t0 n o) * cw 2 o f)) + cb f)) 0)
        (g1 f) (be1 f) (mu1 f) (var1 f) * lw q f) + lb q

def outR : Fin 8192 → Fin 2 → EReal :=
  outRg ei cw cb lw lb g1 be1 mu1 var1 (tx0R x sm w b gS beS muS varS) (nw ei ew)

structure Admissible : Prop where
  x_fin : ∀ n i, ∃ r : ℝ, x n i = (r : EReal)
  ew_fin : ∀ e, ∃ r : ℝ, ew e = (r : EReal)
  w_fin : ∀ c, ∃ r : ℝ, w c = (r : EReal)
  b_fin : ∀ o, ∃ r : ℝ, b o = (r : EReal)
  cw_fin : ∀ k o f, ∃ r : ℝ, cw k o f = (r : EReal)
  cb_fin : ∀ f, ∃ r : ℝ, cb f = (r : EReal)
  lw_fin : ∀ q f, ∃ r : ℝ, lw q f = (r : EReal)
  lb_fin : ∀ q, ∃ r : ℝ, lb q = (r : EReal)
  gS_fin : ∀ o, ∃ r : ℝ, gS o = (r : EReal)
  beS_fin : ∀ o, ∃ r : ℝ, beS o = (r : EReal)
  muS_fin : ∀ o, ∃ r : ℝ, muS o = (r : EReal)
  varS_fin : ∀ o, ∃ r : ℝ, varS o = (r : EReal)
  g1_fin : ∀ f, ∃ r : ℝ, g1 f = (r : EReal)
  be1_fin : ∀ f, ∃ r : ℝ, be1 f = (r : EReal)
  mu1_fin : ∀ f, ∃ r : ℝ, mu1 f = (r : EReal)
  var1_fin : ∀ f, ∃ r : ℝ, var1 f = (r : EReal)
  ei_range : ∀ k e, 0 ≤ ei k e ∧ ei k e < 8192
  sm_in_range : ∀ c, 0 ≤ sm c 0 ∧ sm c 0 < 2048
  varS_nonneg : ∀ o, 0 ≤ varS o
  var1_nonneg : ∀ f, 0 ≤ var1 f

end Inputs

end Cert.Spec

end
-- ==== Proof.LibMatmulAt.lean ====
import Idealize.ShloMosaic.PureOps.Ideal.Laws
import Idealize.ShloMosaic.Lib.ValueIdx

noncomputable section

namespace Idealize.ShloMosaic.MatmulAt

open Idealize.ShloMosaic Idealize.ShloMosaic.ValueIdx

theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibFrame2.lean ====
import Idealize.ShloMosaic.Lib.Pipeline.Value
import Idealize.ShloMosaic.Lib.Pipeline.FrameBody

namespace Cert.LibFrame2

open Idealize.ShloMosaic

variable {sig : RefSig} {κ : Kind} {sp : Space} {S : Shape} {e : EltTy} {Val : EltTy → Type} [∀ e, Nonempty (Val e)]

theorem hz2 : (![0, 0] : Fin 2 → Nat) = fun _ => 0 := funext fun a => by fin_cases a <;> rfl

-- the last store alone covers the shape, so the earlier contents are never read
theorem read_writes_unit_zero (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ fun y => ⟨_, List.mem_cons.2 (.inl rfl), View.mem_set_unit_zero h inb y⟩,
    View.canon_cons_unit_zero h]

end Cert.LibFrame2
-- ==== Proof.KB.Region1Work.Runs.lean ====
import proofs.«410350_j46755013984839_3_alg».proof.Proof.Gen.Kernel.Launch
import proofs.«410350_j46755013984839_3_alg».proof.Proof.Gen.Kernel.Skeleton
import proofs.«410350_j46755013984839_3_alg».proof.Proof.Gen.Kernel.Points
import proofs.«410350_j46755013984839_3_alg».proof.Proof.Spec
import proofs.«410350_j46755013984839_3_alg».proof.Proof.LibMatmulAt
import proofs.«410350_j46755013984839_3_alg».proof.Proof.LibFrame2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibFrame2

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1 : ∀ t : Fin cfg1.N, (cond1_0 (grid1.coords t) ↔ t.val % 8 = 0) ∧ (cond1_1 (grid1.coords t) ↔ t.val % 8 = 7) := by decide +kernel

theorem idle1_2 (i : grid1.Coords) : cfg1.idle 2 i = !decide (cond1_1 i) := rfl

abbrev scM1 : Memref sig .tc .vmem S1024x1024 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(iprop(iprop(∃ d, owns c.tc scM1 fullShare d) ∗ restBut1 c) ∗ (∃ r, prngReg c r)) := by
  unfold Pipeline.ΦA; rw [scopedRest1_split]; simp only [scM1, owns_whole]; try rfl

variable (c : Dev nD) (i : grid1.Coords) {a2 : Memref sig .tc .vmem S1024x1024 .bf16} {a3 a4 a5 : Memref sig .tc .vmem S1024x1024 .f32}
  (h2 : a2.IsWhole) (h3 : a3.IsWhole) (h4 : a4.IsWhole) (h5 : a5.IsWhole)
  (x0 : Vec F S1024x1024 .bf16) (x1 x2 xs : Vec F S1024x1024 .f32)

def own1 (a2 : Memref sig .tc .vmem S1024x1024 .bf16) (a3 a4 a5 : Memref sig .tc .vmem S1024x1024 .f32) (x0 : Vec F S1024x1024 .bf16) (x1 x2 xs : Vec F S1024x1024 .f32) : sProp 𝕄 :=
  iprop(owns c.tc a2 fullShare x0 ∗ owns c.tc a3 fullShare x1 ∗ owns c.tc a4 fullShare x2 ∗ owns c.tc a5 fullShare xs)

def accStep1 : Vec F S1024x1024 .f32 := k1_pay2 x1 (if cond1_0 i then k1_pay1 else xs) x0

-- one run per outcome of the two conditionals; each store covers its target, so what is left is the last payload
set_option maxHeartbeats 1000000 in
theorem run1 (hx : cond1_0 i → ¬cond1_1 i) (E : Set ℕ) (K : PUnit → sProp 𝕄) :
    iprop(own1 c a2 a3 a4 a5 x0 x1 x2 xs ∗ (own1 c a2 a3 a4 a5 x0 x1 (if cond1_1 i then accStep1 i x0 x1 xs else x2) (accStep1 i x0 x1 xs) -∗ K ⟨⟩))
      ⊢ wp frame (wpE (defs₀ (F := F)) Variants.none c none) E (cc1__prop_kernel_noresidual i a2 h2 a3 h3 a4 h4 a5 h5) K := by
  simp only [cc1__prop_kernel_noresidual_eq_skeleton]; unfold cc1__prop_kernel_noresidual_skel own1 owns accStep1
  iintro ⟨⟨⟨%f0, %hf0, H0⟩, ⟨%f1, %hf1, H1⟩, ⟨%f2, %hf2, H2⟩, ⟨%fs, %hfs, HS⟩⟩, Hk⟩
  obtain rfl := h2.eq_unread hf0; obtain rfl := h3.eq_unread hf1; obtain rfl := h4.eq_unread hf2; obtain rfl := h5.eq_unread hfs
  by_cases hc0 : cond1_0 i <;> by_cases hc1 : cond1_1 i
  · exact absurd hc1 (hx hc0)
  all_goals
    sl_exec (disch := first | exact hc0 | exact hc1)
    sl_step
    iapply Hk
    sl_unfold_words
    first | rw [if_pos hc1] | rw [if_neg hc1]
    first | rw [if_pos hc0] | rw [if_neg hc0]
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro
      first
        | have : ¬cond1_1 i := hc1; exact hf2
        | rw [read_writes_unit_zero _ _ hz2]; simp only [View.readAt_eq_ld, View.readCov_cons_toLoadRect, hf0, hf1, hfs, View.ld_unit_zero (S := S1024x1024) hz2]
    iexists _; isplitr; swap; · iexact HS
    ipureintro
    rw [read_writes_unit_zero _ _ hz2]; simp only [View.readAt_eq_ld, View.readCov_cons_toLoadRect, hf0, hf1, hfs, View.ld_unit_zero (S := S1024x1024) hz2]

end Cert.Kernel.Hand

end
-- ==== Proof.KI.Region0.lean ====
import proofs.«410350_j46755013984839_3_alg».proof.Proof.Gen.KernelIdeal.Launch
import proofs.«410350_j46755013984839_3_alg».proof.Proof.Gen.KernelIdeal.Skeleton
import proofs.«410350_j46755013984839_3_alg».proof.Proof.Gen.KernelIdeal.Points
import Idealize.ShloMosaic.Lib.Pipeline.FrameBody
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
variable {F : FTy → Type} [FloatOps F]
local notation "𝕄" => MT nD τ sig Unit (Elt F) ℕ (UR sig nD τ) ℕ

section Frame
variable (V : (c : Dev nD) → (b : Ref sig .tc) → Buf (Elt F) ((c : Thread nD τ).loc b)) (c : Dev nD)
  (a1 : Memref sig .tc .vmem S512x2048 .f32) (a2 : Memref sig .tc .vmem S2048x1024 .bf16) (a3 a4 a5 a6 a7 : Memref sig .tc .vmem S1x1024 .f32)
  (x0 : Vec F S512x2048 .f32) (x1 : Vec F S2048x1024 .bf16) (x2 x3 x4 x5 x6 : Vec F S1x1024 .f32)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ld0 (x : Vec F S1x1024 .f32) := View.ld x (.unit _ _ inb_S1x1024_S1x1024_0_0)

def out0_7 : Vec F S512x1024 .f32 :=
  View.canon [⟨.unit _ _ inb_S512x1024_S512x1024_0_0, k0_pay1 (View.ld x0 (.unit _ _ inb_S512x2048_S512x2048_0_0)) (View.ld x1 (.unit _ _ inb_S2048x1024_S2048x1024_0_0)) (ld0 x2) (ld0 x3) (ld0 x6) (ld0 x4) (ld0 x5)⟩]

def ins0 (R : sProp 𝕄) : sProp 𝕄 :=
  iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ R)

theorem sound_kernel0 (E : Set ℕ) (i : grid0.Coords) {a8 : Memref sig .tc .vmem S512x1024 .f32}
    (h1 : a1.IsWhole) (h2 : a2.IsWhole) (h3 : a3.IsWhole) (h4 : a4.IsWhole) (h5 : a5.IsWhole) (h6 : a6.IsWhole) (h7 : a7.IsWhole) (h8 : a8.IsWhole) (K : PUnit → sProp 𝕄) :
    ins0 c a1 a2 a3 a4 a5 a6 a7 x0 x1 x2 x3 x4 x5 x6 iprop((∃ d, owns c.tc a8 fullShare d)
        ∗ (ins0 c a1 a2 a3 a4 a5 a6 a7 x0 x1 x2 x3 x4 x5 x6 (owns c.tc a8 fullShare (out0_7 x0 x1 x2 x3 x4 x5 x6)) -∗ K ⟨⟩))
      ⊢ wp frame (wpE (defs₀ (F := F)) Variants.none c none) E (cc0__kernelA_body i a1 h1 a2 h2 a3 h3 a4 h4 a5 h5 a6 h6 a7 h7 a8 h8) K := by
  simp only [cc0__kernelA_body_eq_skeleton]; unfold cc0__kernelA_body_skel ins0 owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d, %f7, -, H7⟩, Hk⟩
  subst e0 e1 e2 e3 e4 e5 e6
  sl_exec
  sl_step
  iapply Hk
  isplitl [H0]; · iexists _; iframe; itrivial
  isplitl [H1]; · iexists _; iframe; itrivial
  isplitl [H2]; · iexists _; iframe; itrivial
  isplitl [H3]; · iexists _; iframe; itrivial
  isplitl [H4]; · iexists _; iframe; itrivial
  isplitl [H5]; · iexists _; iframe; itrivial
  isplitl [H6]; · iexists _; iframe; itrivial
  iexists _; iframe; ipureintro
  exact View.read_writes_eq_canon _ _ _ (View.cover_of_tiled _ S512x1024.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (w : Fin cfg0.W) : (dat0 V c).A w = V c (Pipeline.arrRef spec0 w) := rfl
theorem q_eq0 (w : Fin cfg0.W) : (dat0 V c).q w = fullShare := rfl
theorem owed_eq0 (t : Fin (cfg0.N + 1)) : (dat0 V c).owed t = 0 := rfl
theorem recorded_eq0 (t : Fin (cfg0.N + 1)) : (dat0 V c).recorded t = Set.univ := rfl

theorem before0 (t : Fin cfg0.N) : ∀ w : Fin cfg0.W, (cfg0.win w).isOut = false → ∀ d, (dat0 V c).before w t d = (dat0 V c).after w t
  | ⟨7, _⟩, h, _ => Bool.noConfusion h
  | ⟨0, _⟩, _, d | ⟨1, _⟩, _, d | ⟨2, _⟩, _, d | ⟨3, _⟩, _, d | ⟨4, _⟩, _, d | ⟨5, _⟩, _, d | ⟨6, _⟩, _, d =>
    ((dat0 V c).before_in_eq_fetched _ rfl (fun _ => rfl) (fun _ _ _ => rfl) (fun _ => by dsimp only [dat0]; rfl) t d).trans (by dsimp only [dat0]; rfl)

theorem body_obligation0 : BodyObligation (dat0 (F := F) V c) (defs₀ (F := F)) Variants.none () Set.univ := fun t => by
  rw [bigSep_W0, bigSep_W0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0 V c t 0 rfl, before0 V c t 1 rfl, before0 V c t 2 rfl, before0 V c t 3 rfl, before0 V c t 4 rfl, before0 V c t 5 rfl, before0 V c t 6 rfl]
  dsimp only [dat0, Dat.owesAt, Dat.bound]
  iapply (sound_kernel0 c _ _ _ _ _ _ _ (iblk0 V c 0 t) (iblk0 V c 1 t) (iblk0 V c 2 t) (iblk0 V c 3 t) (iblk0 V c 4 t) (iblk0 V c 5 t) (iblk0 V c 6 t) Set.univ (grid0.coords t) _ _ _ _ _ _ _ _ _)
  unfold ins0
  iframe H0 H1 H2 H3 H4 H5 H6
  isplitl [H7]; · iexists _; iexact H7
  iintro H
  iframe HΦ Ho
  iexact H

theorem hin0 : (Pipeline.ΦA spec0 c : sProp 𝕄) ⊢ (dat0 V c).Φ 0 := .rfl
theorem hout0 : (dat0 V c).Φ (Fin.last cfg0.N) ⊢ (Pipeline.ΦA spec0 c : sProp 𝕄) := .rfl

end Frame

end Cert.KernelIdeal.Hand

end
-- ==== Proof.KI.Region1Work.Runs.lean ====
import proofs.«410350_j46755013984839_3_alg».proof.Proof.Gen.KernelIdeal.Launch
import proofs.«410350_j46755013984839_3_alg».proof.Proof.Gen.KernelIdeal.Skeleton
import proofs.«410350_j46755013984839_3_alg».proof.Proof.Gen.KernelIdeal.Points
import proofs.«410350_j46755013984839_3_alg».proof.Proof.Spec
import proofs.«410350_j46755013984839_3_alg».proof.Proof.LibMatmulAt
import proofs.«410350_j46755013984839_3_alg».proof.Proof.LibFrame2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibFrame2

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1 : ∀ t : Fin cfg1.N, (cond1_0 (grid1.coords t) ↔ t.val % 8 = 0) ∧ (cond1_1 (grid1.coords t) ↔ t.val % 8 = 7) := by decide +kernel

theorem idle1_2 (i : grid1.Coords) : cfg1.idle 2 i = !decide (cond1_1 i) := rfl

abbrev scM1 : Memref sig .tc .vmem S1024x1024 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(iprop(iprop(∃ d, owns c.tc scM1 fullShare d) ∗ restBut1 c) ∗ (∃ r, prngReg c r)) := by
  unfold Pipeline.ΦA; rw [scopedRest1_split]; simp only [scM1, owns_whole]; try rfl

variable (c : Dev nD) (i : grid1.Coords) {a2 : Memref sig .tc .vmem S1024x1024 .bf16} {a3 a4 a5 : Memref sig .tc .vmem S1024x1024 .f32}
  (h2 : a2.IsWhole) (h3 : a3.IsWhole) (h4 : a4.IsWhole) (h5 : a5.IsWhole)
  (x0 : Vec F S1024x1024 .bf16) (x1 x2 xs : Vec F S1024x1024 .f32)

def own1 (a2 : Memref sig .tc .vmem S1024x1024 .bf16) (a3 a4 a5 : Memref sig .tc .vmem S1024x1024 .f32) (x0 : Vec F S1024x1024 .bf16) (x1 x2 xs : Vec F S1024x1024 .f32) : sProp 𝕄 :=
  iprop(owns c.tc a2 fullShare x0 ∗ owns c.tc a3 fullShare x1 ∗ owns c.tc a4 fullShare x2 ∗ owns c.tc a5 fullShare xs)

def accStep1 : Vec F S1024x1024 .f32 := k1_pay2 x1 (if cond1_0 i then k1_pay1 else xs) x0

-- one run per outcome of the two conditionals; each store covers its target, so what is left is the last payload
set_option maxHeartbeats 1000000 in
theorem run1 (hx : cond1_0 i → ¬cond1_1 i) (E : Set ℕ) (K : PUnit → sProp 𝕄) :
    iprop(own1 c a2 a3 a4 a5 x0 x1 x2 xs ∗ (own1 c a2 a3 a4 a5 x0 x1 (if cond1_1 i then accStep1 i x0 x1 xs else x2) (accStep1 i x0 x1 xs) -∗ K ⟨⟩))
      ⊢ wp frame (wpE (defs₀ (F := F)) Variants.none c none) E (cc1__prop_kernel_noresidual i a2 h2 a3 h3 a4 h4 a5 h5) K := by
  simp only [cc1__prop_kernel_noresidual_eq_skeleton]; unfold cc1__prop_kernel_noresidual_skel own1 owns accStep1
  iintro ⟨⟨⟨%f0, %hf0, H0⟩, ⟨%f1, %hf1, H1⟩, ⟨%f2, %hf2, H2⟩, ⟨%fs, %hfs, HS⟩⟩, Hk⟩
  obtain rfl := h2.eq_unread hf0; obtain rfl := h3.eq_unread hf1; obtain rfl := h4.eq_unread hf2; obtain rfl := h5.eq_unread hfs
  by_cases hc0 : cond1_0 i <;> by_cases hc1 : cond1_1 i
  · exact absurd hc1 (hx hc0)
  all_goals
    sl_exec (disch := first | exact hc0 | exact hc1)
    sl_step
    iapply Hk
    sl_unfold_words
    first | rw [if_pos hc1] | rw [if_neg hc1]
    first | rw [if_pos hc0] | rw [if_neg hc0]
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro
      first
        | have : ¬cond1_1 i := hc1; exact hf2
        | rw [read_writes_unit_zero _ _ hz2]; simp only [View.readAt_eq_ld, View.readCov_cons_toLoadRect, hf0, hf1, hfs, View.ld_unit_zero (S := S1024x1024) hz2]
    iexists _; isplitr; swap; · iexact HS
    ipureintro
    rw [read_writes_unit_zero _ _ hz2]; simp only [View.readAt_eq_ld, View.readCov_cons_toLoadRect, hf0, hf1, hfs, View.ld_unit_zero (S := S1024x1024) hz2]

end Cert.KernelIdeal.Hand

end
-- ==== Proof.KI.Region1.lean ====
import proofs.«410350_j46755013984839_3_alg».proof.Proof.KI.Region1Work.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 : (n : ℕ) → n < cfg1.N → Vec F S1024x1024 .f32
  | 0, h => accStep1 (grid1.coords ⟨0, h⟩) (iblk1 V c 0 ⟨0, h⟩) (iblk1 V c 1 ⟨0, h⟩) k1_pay1
  | n + 1, h => accStep1 (grid1.coords ⟨n + 1, h⟩) (iblk1 V c 0 ⟨n + 1, h⟩) (iblk1 V c 1 ⟨n + 1, h⟩) (acc1 n (Nat.lt_of_succ_lt h))

-- at the first point the accumulator is reset, so what it held before does not matter
theorem acc1_eq (t : Fin cfg1.N) (d : Vec F S1024x1024 .f32) (hd : ∀ h : t.val ≠ 0, d = acc1 V c (t.val - 1) (by omega)) :
    accStep1 (grid1.coords t) (iblk1 V c 0 t) (iblk1 V c 1 t) d = acc1 V c t.val t.isLt := by
  obtain ⟨n, hn⟩ := t
  cases n with
  | zero => unfold acc1 accStep1; rw [if_pos ((hcond1 _).1.2 rfl), ite_self]
  | succ n => rw [hd (Nat.succ_ne_zero n)]; rfl

def Phi1 (n : ℕ) (h : n ≤ cfg1.N) : sProp 𝕄 :=
  iprop(iprop(iprop(∃ d, ⌜∀ hn : n ≠ 0, d = acc1 V c (n - 1) (by omega)⌝ ∗ owns c.tc scM1 fullShare d) ∗ restBut1 c) ∗ (∃ r, prngReg c r))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (w : Fin cfg1.W) : (dat1 V c).A w = V c (Pipeline.arrRef spec1 w) := rfl
theorem q_eq1 (w : Fin cfg1.W) : (dat1 V c).q w = fullShare := rfl
theorem owed_eq1 (t : Fin (cfg1.N + 1)) : (dat1 V c).owed t = 0 := rfl
theorem recorded_eq1 (t : Fin (cfg1.N + 1)) : (dat1 V c).recorded t = Set.univ := rfl

theorem before1 (t : Fin cfg1.N) (d0 d1) :
    (dat1 V c).before 0 t d0 = iblk1 V c 0 t ∧ (dat1 V c).before 1 t d1 = iblk1 V c 1 t := by
  refine ⟨?_, ?_⟩ <;> exact ((dat1 V c).before_in_eq_fetched _ rfl (fun _ => rfl) (fun _ _ _ => rfl) (fun _ => rfl) t _).trans rfl

theorem leaves1_2 (t : Fin cfg1.N) (d) :
    owns c.tc (st1_2 t) fullShare (if cond1_1 (grid1.coords t) then (dat1 V c).after 2 t else (dat1 V c).before 2 t d) ⊢ (dat1 V c).leavesExact 2 t := by
  by_cases hc1 : cond1_1 (grid1.coords t)
  · rw [if_pos hc1]; unfold Dat.leavesExact; rw [idle1_2, decide_eq_true hc1]; exact .rfl
  · rw [if_neg hc1, Dat.leavesExact_idle _ 2 t (by rw [idle1_2, decide_eq_false hc1]; rfl) (Bool.eq_false_iff.2 fun h => hc1 ((hcond1 t).2.2 ((flush1_2 t).1 h)))]
    iintro H; iexists d; iexact H

theorem sound_body1 (t : Fin cfg1.N) :
    iprop((dat1 V c).Φ t.castSucc ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ ∗ (dat1 V c).leavesExact 0 t ∗ (dat1 V c).leavesExact 1 t ∗ (dat1 V c).leavesExact 2 t)) := by
  rw [show (dat1 V c).Φ t.castSucc = Phi1 V c t.val (Nat.le_of_lt t.isLt) from rfl, show (dat1 V c).Φ t.succ = Phi1 V c (t.val + 1) t.isLt from rfl,
    show (dat1 V c).owesAt () t.succ = (dat1 V c).owesAt () t.castSucc from rfl]
  unfold Phi1
  iintro ⟨⟨⟨⟨%ds, %hds, HS⟩, HR⟩, Hg⟩, Ho, ⟨%d0, H0⟩, ⟨%d1, H1⟩, ⟨%d2, H2⟩⟩
  obtain ⟨e0, e1⟩ := before1 V c t d0 d1; rw [e0, e1]
  iapply (run1 c (grid1.coords t) _ _ _ _ (iblk1 V c 0 t) (iblk1 V c 1 t) _ ds (fun a b => by have := (hcond1 t).1.1 a; have := (hcond1 t).2.1 b; omega) Set.univ _)
  rw [acc1_eq V c t ds hds]; unfold own1
  isplitl [H0 H1 H2 HS]; · iframe
  iintro ⟨H0, H1, H2, HS⟩
  isplitl [HS HR Hg]
  · iframe HR Hg; iexists _; iframe HS; ipureintro; exact fun _ => rfl
  iframe Ho; isplitl [H0]; · iexact H0
  isplitl [H1]; · iexact H1
  iapply (leaves1_2 V c t d2); iexact H2

theorem body_obligation1 : BodyObligation (dat1 (F := F) V c) (defs₀ (F := F)) Variants.none () Set.univ := fun t => by
  rw [bigSep_W1, bigSep_W1]
  exact sound_body1 V c t

theorem hin1 : (Pipeline.ΦA spec1 c : sProp 𝕄) ⊢ (dat1 V c).Φ 0 := by
  rw [PhiA1_eq]; show _ ⊢ Phi1 V c 0 (Nat.zero_le _); unfold Phi1
  iintro ⟨⟨⟨%d, HS⟩, HR⟩, Hg⟩
  iframe HR Hg; iexists d; iframe HS; ipureintro; exact fun h => absurd rfl h

theorem hout1 : (dat1 V c).Φ (Fin.last cfg1.N) ⊢ (Pipeline.ΦA spec1 c : sProp 𝕄) := by
  rw [PhiA1_eq]; show Phi1 V c cfg1.N le_rfl ⊢ _; unfold Phi1
  iintro ⟨⟨⟨%d, -, HS⟩, HR⟩, Hg⟩
  iframe HR Hg; iexists d; iexact HS

end Region

end Cert.KernelIdeal.Hand

end
-- ==== Proof.KI.Region2.lean ====
import proofs.«410350_j46755013984839_3_alg».proof.Proof.Gen.KernelIdeal.Launch
import proofs.«410350_j46755013984839_3_alg».proof.Proof.Gen.KernelIdeal.Skeleton
import proofs.«410350_j46755013984839_3_alg».proof.Proof.Gen.KernelIdeal.Points
import proofs.«410350_j46755013984839_3_alg».proof.Proof.Spec
import proofs.«410350_j46755013984839_3_alg».proof.Proof.LibMatmulAt
import proofs.«410350_j46755013984839_3_alg».proof.Proof.LibFrame2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibFrame2

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem hcond2 : ∀ t : Fin cfg2.N, (cond2_0 (grid2.coords t) ↔ t.val % 8 = 0) ∧ (cond2_1 (grid2.coords t) ↔ t.val % 8 = 7) := by decide +kernel

theorem idle2_3 (i : grid2.Coords) : cfg2.idle 3 i = !decide (cond2_1 i) := rfl

abbrev scM2 : Memref sig .tc .vmem S1024x1024 .f32 := Memref.whole cc2_scratch0

theorem PhiA2_eq (c : Dev nD) :
    (Pipeline.ΦA spec2 c : sProp 𝕄)
      = iprop(iprop(iprop(∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section Body
variable (c : Dev nD) (i : grid2.Coords) {a2 : Memref sig .tc .vmem S1024x1024 .bf16} {a3 a4 a5 a6 : Memref sig .tc .vmem S1024x1024 .f32}
  (h2 : a2.IsWhole) (h3 : a3.IsWhole) (h4 : a4.IsWhole) (h5 : a5.IsWhole) (h6 : a6.IsWhole)
  (x0 : Vec F S1024x1024 .bf16) (x1 x2 x3 xs : Vec F S1024x1024 .f32)

def own5 (a2 : Memref sig .tc .vmem S1024x1024 .bf16) (a3 a4 a5 a6 : Memref sig .tc .vmem S1024x1024 .f32) (x0 : Vec F S1024x1024 .bf16) (x1 x2 x3 xs : Vec F S1024x1024 .f32) : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xs)

def acc' : Vec F S1024x1024 .f32 := k2_pay2 x1 (if cond2_0 i then k2_pay1 else xs) x0

-- one run of the body per outcome of its two conditionals; each store covers its buffer, so what is left is the last payload
set_option maxHeartbeats 1000000 in
theorem run2 (hx : cond2_0 i → ¬cond2_1 i) (E : Set ℕ) (K : PUnit → sProp 𝕄) :
    iprop(own5 c a2 a3 a4 a5 a6 x0 x1 x2 x3 xs ∗ (own5 c a2 a3 a4 a5 a6 x0 x1 x2 (if cond2_1 i then k2_pay3 (acc' i x0 x1 xs) x2 else x3) (acc' i x0 x1 xs) -∗ K ⟨⟩))
      ⊢ wp frame (wpE (defs₀ (F := F)) Variants.none c none) E (cc2__prop_kernel_residual i a2 h2 a3 h3 a4 h4 a5 h5 a6 h6) K := by
  simp only [cc2__prop_kernel_residual_eq_skeleton]; unfold cc2__prop_kernel_residual_skel own5 owns acc'
  iintro ⟨⟨⟨%f0, %hf0, H0⟩, ⟨%f1, %hf1, H1⟩, ⟨%f2, %hf2, H2⟩, ⟨%f3, %hf3, H3⟩, ⟨%fs, %hfs, HS⟩⟩, Hk⟩
  obtain rfl := h2.eq_unread hf0; obtain rfl := h3.eq_unread hf1; obtain rfl := h4.eq_unread hf2; obtain rfl := h5.eq_unread hf3; obtain rfl := h6.eq_unread hfs
  by_cases hc0 : cond2_0 i <;> by_cases hc1 : cond2_1 i
  · exact absurd hc1 (hx hc0)
  all_goals
    sl_exec (disch := first | exact hc0 | exact hc1)
    sl_step
    iapply Hk
    sl_unfold_words
    first | rw [if_pos hc1] | rw [if_neg hc1]
    first | rw [if_pos hc0] | rw [if_neg hc0]
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro
      first
        | have : ¬cond2_1 i := hc1; exact hf3
        | rw [read_writes_unit_zero _ _ hz2]; simp only [View.readAt_eq_ld, View.readCov_cons_toLoadRect, hf0, hf1, hf2, hfs, View.ld_unit_zero (S := S1024x1024) hz2]
    iexists _; isplitr; swap; · iexact HS
    ipureintro
    rw [read_writes_unit_zero _ _ hz2]; simp only [View.readAt_eq_ld, View.readCov_cons_toLoadRect, hf0, hf1, hfs, View.ld_unit_zero (S := S1024x1024) hz2]
end Body

section Region
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 : (n : ℕ) → n < cfg2.N → Vec F S1024x1024 .f32
  | 0, h => acc' (grid2.coords ⟨0, h⟩) (iblk2 V c 0 ⟨0, h⟩) (iblk2 V c 1 ⟨0, h⟩) k2_pay1
  | n + 1, h => acc' (grid2.coords ⟨n + 1, h⟩) (iblk2 V c 0 ⟨n + 1, h⟩) (iblk2 V c 1 ⟨n + 1, h⟩) (acc2 n (Nat.lt_of_succ_lt h))

-- at the first point the accumulator is reset, so what it held before does not matter
theorem acc2_eq (t : Fin cfg2.N) (d : Vec F S1024x1024 .f32) (hd : ∀ h : t.val ≠ 0, d = acc2 V c (t.val - 1) (by omega)) :
    acc' (grid2.coords t) (iblk2 V c 0 t) (iblk2 V c 1 t) d = acc2 V c t.val t.isLt := by
  obtain ⟨n, hn⟩ := t
  cases n with
  | zero => unfold acc2 acc'; rw [if_pos ((hcond2 _).1.2 rfl), ite_self]
  | succ n => rw [hd (Nat.succ_ne_zero n)]; rfl

def Phi2 (n : ℕ) (h : n ≤ cfg2.N) : sProp 𝕄 :=
  iprop(iprop(iprop(∃ d, ⌜∀ hn : n ≠ 0, d = acc2 V c (n - 1) (by omega)⌝ ∗ owns (c : Thread nD τ) scM2 fullShare d)
    ∗ Pipeline.scopedRestBut (Ix := Unit) (Name := ℕ) (U := UR sig nD τ) (Lvl := ℕ) (Val := Elt F) spec2 c [cc2_scratch0]) ∗ (∃ r, prngReg c r))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (w : Fin cfg2.W) : (dat2 V c).A w = V c (Pipeline.arrRef spec2 w) := rfl
theorem q_eq2 (w : Fin cfg2.W) : (dat2 V c).q w = fullShare := rfl
theorem owed_eq2 (t : Fin (cfg2.N + 1)) : (dat2 V c).owed t = 0 := rfl
theorem recorded_eq2 (t : Fin (cfg2.N + 1)) : (dat2 V c).recorded t = Set.univ := rfl

theorem before2 (t : Fin cfg2.N) (d0 d1 d2) :
    (dat2 V c).before 0 t d0 = iblk2 V c 0 t ∧ (dat2 V c).before 1 t d1 = iblk2 V c 1 t ∧ (dat2 V c).before 2 t d2 = iblk2 V c 2 t := by
  refine ⟨?_, ?_, ?_⟩ <;> exact ((dat2 V c).before_in_eq_fetched _ rfl (fun _ => rfl) (fun _ _ _ => rfl) (fun _ => rfl) t _).trans rfl

theorem leaves2_3 (t : Fin cfg2.N) (d) :
    owns (c : Thread nD τ) (st2_3 t) fullShare (if cond2_1 (grid2.coords t) then (dat2 V c).after 3 t else (dat2 V c).before 3 t d) ⊢ (dat2 V c).leavesExact 3 t := by
  by_cases hc1 : cond2_1 (grid2.coords t)
  · rw [if_pos hc1]; unfold Dat.leavesExact; rw [idle2_3, decide_eq_true hc1]; exact .rfl
  · rw [if_neg hc1, Dat.leavesExact_idle _ 3 t (by rw [idle2_3, decide_eq_false hc1]; rfl) (Bool.eq_false_iff.2 fun h => hc1 ((hcond2 t).2.2 ((flush2_3 t).1 h)))]
    iintro H; iexists d; iexact H

theorem sound_body2 (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ ∗ (dat2 V c).leavesExact 0 t ∗ (dat2 V c).leavesExact 1 t
        ∗ (dat2 V c).leavesExact 2 t ∗ (dat2 V c).leavesExact 3 t)) := by
  rw [show (dat2 V c).Φ t.castSucc = Phi2 V c t.val (Nat.le_of_lt t.isLt) from rfl, show (dat2 V c).Φ t.succ = Phi2 V c (t.val + 1) t.isLt from rfl,
    show (dat2 V c).owesAt () t.succ = (dat2 V c).owesAt () t.castSucc from rfl]
  unfold Phi2
  iintro ⟨⟨⟨⟨%ds, %hds, HS⟩, HR⟩, Hg⟩, Ho, ⟨%d0, H0⟩, ⟨%d1, H1⟩, ⟨%d2, H2⟩, ⟨%d3, H3⟩⟩
  obtain ⟨e0, e1, e2⟩ := before2 V c t d0 d1 d2; rw [e0, e1, e2]
  iapply (run2 c (grid2.coords t) _ _ _ _ _ (iblk2 V c 0 t) (iblk2 V c 1 t) (iblk2 V c 2 t) _ ds (fun a b => by have := (hcond2 t).1.1 a; have := (hcond2 t).2.1 b; omega) Set.univ _)
  rw [acc2_eq V c t ds hds]; unfold own5
  isplitl [H0 H1 H2 H3 HS]; · iframe
  iintro ⟨H0, H1, H2, H3, HS⟩
  isplitl [HS HR Hg]
  · iframe HR Hg; iexists _; iframe HS; ipureintro; exact fun _ => rfl
  iframe Ho; isplitl [H0]; · iexact H0
  isplitl [H1]; · iexact H1
  isplitl [H2]; · iexact H2
  iapply (leaves2_3 V c t d3); iexact H3

theorem body_obligation2 : BodyObligation (dat2 (F := F) V c) (defs₀ (F := F)) Variants.none () Set.univ := fun t => by
  rw [bigSep_W2, bigSep_W2]
  exact sound_body2 V c t

theorem hin2 : (Pipeline.ΦA spec2 c : sProp 𝕄) ⊢ (dat2 V c).Φ 0 := by
  rw [PhiA2_eq]; show _ ⊢ Phi2 V c 0 (Nat.zero_le _); unfold Phi2
  iintro ⟨⟨⟨%d, HS⟩, HR⟩, Hg⟩
  iframe HR Hg; iexists d; iframe HS; ipureintro; exact fun h => absurd rfl h

theorem hout2 : (dat2 V c).Φ (Fin.last cfg2.N) ⊢ (Pipeline.ΦA spec2 c : sProp 𝕄) := by
  rw [PhiA2_eq]; show Phi2 V c cfg2.N le_rfl ⊢ _; unfold Phi2
  iintro ⟨⟨⟨%d, -, HS⟩, HR⟩, Hg⟩
  iframe HR Hg; iexists d; iexact HS

end Region

end Cert.KernelIdeal.Hand

end
-- ==== Proof.KI.Region3.lean ====
import proofs.«410350_j46755013984839_3_alg».proof.Proof.Gen.KernelIdeal.Launch
import proofs.«410350_j46755013984839_3_alg».proof.Proof.Gen.KernelIdeal.Skeleton
import proofs.«410350_j46755013984839_3_alg».proof.Proof.Gen.KernelIdeal.Points
import Idealize.ShloMosaic.Lib.Pipeline.FrameBody
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA : Rect S1024x1024 := .unit ![0, 0] S1024x1024.size inb_S1024x1024_S1024x1024_0_0
abbrev rB : Rect S1024x64 := .unit ![0, 0] S1024x64.size inb_S1024x64_S1024x64_0_0
abbrev rC : Rect S1x64 := .unit ![0, 0] S1x64.size inb_S1x64_S1x64_0_0
abbrev rD : Rect S64x2 := .unit ![0, 0] S64x2.size inb_S64x2_S64x2_0_0
abbrev rE : Rect S1x2 := .unit ![0, 0] S1x2.size inb_S1x2_S1x2_0_0
abbrev rO : Rect S1024x2 := .unit ![0, 0] S1024x2.size inb_S1024x2_S1024x2_0_0

section Body
variable (x0 x1 x2 : Vec F S1024x1024 .f32) (x3 x4 x5 : Vec F S1024x64 .bf16) (x6 x7 x8 x9 x10 : Vec F S1x64 .f32)
  (x11 : Vec F S64x2 .f32) (x12 : Vec F S1x2 .f32)
  (a1 a2 a3 : Memref sig .tc .vmem S1024x1024 .f32) (a4 a5 a6 : Memref sig .tc .vmem S1024x64 .bf16)
  (a7 a8 a9 a10 a11 : Memref sig .tc .vmem S1x64 .f32) (a12 : Memref sig .tc .vmem S64x2 .f32)
  (a13 : Memref sig .tc .vmem S1x2 .f32) (a14 : Memref sig .tc .vmem S1024x2 .f32)

def stored3 : Vec F S1024x2 .f32 :=
  k3_pay1 (k3_pay2 (View.ld x0 rA) (View.ld x1 rA) (View.ld x2 rA) (View.ld x3 rB) (View.ld x4 rB) (View.ld x5 rB) (View.ld x6 rC))
    (k3_pay3 (View.ld x7 rC) (View.ld x10 rC)) (View.ld x8 rC) (View.ld x9 rC) (View.ld x11 rD) (View.ld x12 rE)

def out3_13 : Vec F S1024x2 .f32 := View.canon [⟨rO, stored3 x0 x1 x2 x3 x4 x5 x6 x7 x8 x9 x10 x11 x12⟩]

def ins3 : sProp 𝕄 := iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a10 fullShare x9 ∗ owns c a11 fullShare x10 ∗ owns c a12 fullShare x11 ∗ owns c a13 fullShare x12)

-- The one store covers the output block, so what the body leaves there is the stored value.
theorem sound_kernel3 (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (h12 : a12.IsWhole)
    (h13 : a13.IsWhole) (h14 : a14.IsWhole) (E : Set ℕ) (i : grid3.Coords) (K : PUnit → sProp 𝕄) :
    iprop(ins3 c x0 x1 x2 x3 x4 x5 x6 x7 x8 x9 x10 x11 x12 a1 a2 a3 a4 a5 a6 a7 a8 a9 a10 a11 a12 a13 ∗ (∃ d, owns c a14 fullShare d)
        ∗ (ins3 c x0 x1 x2 x3 x4 x5 x6 x7 x8 x9 x10 x11 x12 a1 a2 a3 a4 a5 a6 a7 a8 a9 a10 a11 a12 a13 ∗ owns c a14 fullShare (out3_13 x0 x1 x2 x3 x4 x5 x6 x7 x8 x9 x10 x11 x12) -∗ K ⟨⟩))
      ⊢ wp frame (wpE (defs₀ (F := F)) Variants.none c none) E
          (cc3__kernelB_body i a1 h1 a2 h2 a3 h3 a4 h4 a5 h5 a6 h6 a7 h7 a8 h8 a9 h9 a10 h10 a11 h11 a12 h12 a13 h13 a14 h14) K := by
  simp only [cc3__kernelB_body_eq_skeleton]; unfold cc3__kernelB_body_skel
  simp only [k3_part1_eq_skeleton]; unfold k3_part1_skel
  unfold ins3
  simp only [owns_eq_rep]
  iintro ⟨⟨H0, H1, H2, H3, H4, H5, H6, H7, H8, H9, H10, H11, H12⟩, ⟨%d13, H13⟩, Hk⟩
  sl_exec
  sl_step
  iapply Hk
  iframe
  rw [← owns_eq_rep]; unfold owns
  iexists _; isplitr
  swap; · iexact H13
  ipureintro
  rw [View.read_writes_eq_canon _ _ _ (View.cover_of_tiled _ S1024x2.size (by rfl))]
  simp only [out3_13, stored3, View.readAt_eq_ld, View.read_rep]

end Body

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
  Φ _ := Pipeline.ΦA spec3 c
  q _ := fullShare
  owed _ := 0

theorem A_eq3 (w : Fin cfg3.W) : (dat3 V c).A w = V c (Pipeline.arrRef spec3 w) := rfl
theorem q_eq3 (w : Fin cfg3.W) : (dat3 V c).q w = fullShare := rfl
theorem owed_eq3 (t : Fin (cfg3.N + 1)) : (dat3 V c).owed t = 0 := rfl
theorem recorded_eq3 (t : Fin (cfg3.N + 1)) : (dat3 V c).recorded t = Set.univ := rfl

theorem before3 (w : Fin 14) (hw : w ≠ 13) (t : Fin cfg3.N) (d) : (dat3 V c).before w t d = (dat3 V c).after w t := by
  match w with
  | 13 => exact absurd rfl hw
  | 0 | 1 | 2 | 3 | 4 | 5 | 6 | 7 | 8 | 9 | 10 | 11 | 12 =>
    refine ((dat3 V c).before_in_eq_fetched _ rfl (fun _ => rfl) (fun _ _ _ => rfl) (fun t => ?_) t d).trans ?_
    · unfold Dat.blockOf; dsimp only [dat3]; rfl
    · unfold Dat.fetched Dat.blockOf; dsimp only [dat3]; rfl

-- The body's triple at the inputs' blocks; everything else is framed.
theorem body_obligation3 : BodyObligation (dat3 (F := F) V c) (defs₀ (F := F)) Variants.none () Set.univ := fun t => by
  rw [bigSep_W3, bigSep_W3]
  simp only [before3 V c, Fin.reduceNe]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply sound_kernel3
  unfold ins3
  iframe
  isplitl [H13]; · iexists _; iexact H13
  iintro ⟨⟨H0, H1, H2, H3, H4, H5, H6, H7, H8, H9, H10, H11, H12⟩, H13⟩
  iframe

theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

end Frame

end Cert.KernelIdeal.Hand

end
-- ==== Proof.KI.Run.lean ====
import proofs.«410350_j46755013984839_3_alg».proof.Proof.Gen.KernelIdeal.Launch
import proofs.«410350_j46755013984839_3_alg».proof.Proof.Gen.KernelIdeal.Skeleton
import proofs.«410350_j46755013984839_3_alg».proof.Proof.Gen.KernelIdeal.Points
import proofs.«410350_j46755013984839_3_alg».proof.Proof.Gen.KernelIdeal.Regions
import proofs.«410350_j46755013984839_3_alg».proof.Proof.Spec
import proofs.«410350_j46755013984839_3_alg».proof.Proof.KI.Region0
import proofs.«410350_j46755013984839_3_alg».proof.Proof.KI.Region1
import proofs.«410350_j46755013984839_3_alg».proof.Proof.KI.Region2
import proofs.«410350_j46755013984839_3_alg».proof.Proof.KI.Region3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

def X0 (c : Dev nD) : Valuation τ sig (Elt F) := fun b => m (c, b)

def X1 (c : Dev nD) : Valuation τ sig (Elt F) := StableHlo.after hostOps0 (X0 m c)

-- A boundary's contents, reference by reference.
abbrev tcOf (X : Dev nD → Valuation τ sig (Elt F)) : (c : Dev nD) → (b : Ref sig .tc) → Buf (Elt F) ((c : Thread nD τ).loc b) :=
  fun c b => X c (Proc.devRef .tc b)
abbrev Y1 := tcOf (X1 m)

def o2 (c : Dev nD) : Buf (Elt F) ((c : Thread nD τ).loc main_v25) := (dat0 (Y1 m) c).arrAt 7 cfg0.N

def X2 (c : Dev nD) : Valuation τ sig (Elt F) := Function.update (X1 m c) (Proc.devRef .tc main_v25) (o2 m c)

abbrev Y2 := tcOf (X2 m)

def X3 (c : Dev nD) : Valuation τ sig (Elt F) := StableHlo.after hostOps1 (X2 m c)

def X4 (c : Dev nD) : Valuation τ sig (Elt F) := StableHlo.after hostOps1_1 (X3 m c)

def X5 (c : Dev nD) : Valuation τ sig (Elt F) := StableHlo.after hostOps1_2 (X4 m c)

abbrev Y5 := tcOf (X5 m)

def o6 (c : Dev nD) : Buf (Elt F) ((c : Thread nD τ).loc main_v72) := (dat1 (Y5 m) c).arrAt 2 cfg1.N

def X6 (c : Dev nD) : Valuation τ sig (Elt F) := Function.update (X5 m c) (Proc.devRef .tc main_v72) (o6 m c)

abbrev Y6 := tcOf (X6 m)

def o7 (c : Dev nD) : Buf (Elt F) ((c : Thread nD τ).loc main_v73) := (dat2 (Y6 m) c).arrAt 3 cfg2.N

def X7 (c : Dev nD) : Valuation τ sig (Elt F) := Function.update (X6 m c) (Proc.devRef .tc main_v73) (o7 m c)

abbrev Y7 := tcOf (X7 m)

def X8 (c : Dev nD) : Valuation τ sig (Elt F) := StableHlo.after hostOps3 (X7 m c)

abbrev Y8 := tcOf (X8 m)

def o9 (c : Dev nD) : Buf (Elt F) ((c : Thread nD τ).loc main_v90) := (dat3 (Y8 m) c).arrAt 13 cfg3.N

def X9 (c : Dev nD) : Valuation τ sig (Elt F) := Function.update (X8 m c) (Proc.devRef .tc main_v90) (o9 m c)

abbrev Y9 := tcOf (X9 m)

theorem X1_of (c : Dev nD) (r : Ref sig .tc) (h : r ∉ hostOps0_W) : X1 m c (Proc.devRef .tc r) = X0 m c (Proc.devRef .tc r) :=
  StableHlo.after_of_writes_sub hostOps0 _ hostOps0_writes h
theorem X2_of (c : Dev nD) (r : Ref sig .tc) (h : r ≠ main_v25) : X2 m c (Proc.devRef .tc r) = X1 m c (Proc.devRef .tc r) :=
  Function.update_of_ne (StableHlo.devRef_ne_of_ne h) _ _
theorem X2_out (c : Dev nD) : X2 m c (Proc.devRef .tc main_v25) = o2 m c := Function.update_self _ _ _
theorem X3_of (c : Dev nD) (r : Ref sig .tc) (h : r ∉ hostOps1_W) : X3 m c (Proc.devRef .tc r) = X2 m c (Proc.devRef .tc r) :=
  StableHlo.after_of_writes_sub hostOps1 _ hostOps1_writes h
theorem X4_of (c : Dev nD) (r : Ref sig .tc) (h : r ∉ hostOps1_1_W) : X4 m c (Proc.devRef .tc r) = X3 m c (Proc.devRef .tc r) :=
  StableHlo.after_of_writes_sub hostOps1_1 _ hostOps1_1_writes h
theorem X5_of (c : Dev nD) (r : Ref sig .tc) (h : r ∉ hostOps1_2_W) : X5 m c (Proc.devRef .tc r) = X4 m c (Proc.devRef .tc r) :=
  StableHlo.after_of_writes_sub hostOps1_2 _ hostOps1_2_writes h
theorem X6_of (c : Dev nD) (r : Ref sig .tc) (h : r ≠ main_v72) : X6 m c (Proc.devRef .tc r) = X5 m c (Proc.devRef .tc r) :=
  Function.update_of_ne (StableHlo.devRef_ne_of_ne h) _ _
theorem X6_out (c : Dev nD) : X6 m c (Proc.devRef .tc main_v72) = o6 m c := Function.update_self _ _ _
theorem X7_of (c : Dev nD) (r : Ref sig .tc) (h : r ≠ main_v73) : X7 m c (Proc.devRef .tc r) = X6 m c (Proc.devRef .tc r) :=
  Function.update_of_ne (StableHlo.devRef_ne_of_ne h) _ _
theorem X7_out (c : Dev nD) : X7 m c (Proc.devRef .tc main_v73) = o7 m c := Function.update_self _ _ _
theorem X8_of (c : Dev nD) (r : Ref sig .tc) (h : r ∉ hostOps3_W) : X8 m c (Proc.devRef .tc r) = X7 m c (Proc.devRef .tc r) :=
  StableHlo.after_of_writes_sub hostOps3 _ hostOps3_writes h
theorem X9_of (c : Dev nD) (r : Ref sig .tc) (h : r ≠ main_v90) : X9 m c (Proc.devRef .tc r) = X8 m c (Proc.devRef .tc r) :=
  Function.update_of_ne (StableHlo.devRef_ne_of_ne h) _ _
theorem X9_out (c : Dev nD) : X9 m c (Proc.devRef .tc main_v90) = o9 m c := Function.update_self _ _ _

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A reference that no host stretch writes and that is no region's output ends as launched.
theorem kept {s : MemSt nD τ sig (Elt F)} (hs : ∀ c : Dev nD, ∀ b ∈ Pipeline.ucRefs τ sig, s.mem ((c : Thread nD τ).1, b) = X9 m c b)
    (c : Dev nD) (r : Ref sig .tc)
    (h : ¬ (Proc.devRef .tc r : DevRef τ sig).isScoped ∧ r ∉ hostOps0_W ∧ r ≠ main_v25 ∧ r ∉ hostOps1_W ∧ r ∉ hostOps1_1_W
      ∧ r ∉ hostOps1_2_W ∧ r ≠ main_v72 ∧ r ≠ main_v73 ∧ r ∉ hostOps3_W ∧ r ≠ main_v90) :
    s.mem ((c.tc : Thread nD τ).loc r) = m ((c.tc : Thread nD τ).loc r) :=
  (hs c _ (mem_uc r h.1)).trans <| (X9_of m c r h.2.2.2.2.2.2.2.2.2).trans <| (X8_of m c r h.2.2.2.2.2.2.2.2.1).trans <|
    (X7_of m c r h.2.2.2.2.2.2.2.1).trans <| (X6_of m c r h.2.2.2.2.2.2.1).trans <| (X5_of m c r h.2.2.2.2.2.1).trans <|
    (X4_of m c r h.2.2.2.2.1).trans <| (X3_of m c r h.2.2.2.1).trans <| (X2_of m c r h.2.2.1).trans <| (X1_of m c r h.2.1).trans rfl

-- A reference that is none of a region's arrays is not its output array.
theorem not_arr {gr W : ℕ} (win : Fin W → Pipeline.WinSpec sig gr) (o : Fin W) {b : Ref sig .tc}
    (hb : b ∉ Finset.univ.image (Pipeline.arrRef win)) : b ≠ Pipeline.arrRef win o :=
  fun e => hb (Finset.mem_image.mpr ⟨o, Finset.mem_univ _, e.symm⟩)

theorem hF0 (c : Dev nD) (w : Fin 8) : (dat0 (Y1 m) c).arrAt w cfg0.N = Y2 m c (Pipeline.arrRef spec0 w) := by
  by_cases h : w = 7
  · subst h; exact (X2_out m c).symm
  · exact ((dat0 (Y1 m) c).arrAt_in w ((by decide : ∀ w : Fin 8, w ≠ 7 → (cfg0.win w).isOut = false) w h) _).trans
      ((A_eq0 (Y1 m) c w).trans (X2_of m c _ ((by decide : ∀ w : Fin 8, w ≠ 7 → Pipeline.arrRef spec0 w ≠ main_v25) w h)).symm)

theorem hF1 (c : Dev nD) (w : Fin 3) : (dat1 (Y5 m) c).arrAt w cfg1.N = Y6 m c (Pipeline.arrRef spec1 w) := by
  by_cases h : w = 2
  · subst h; exact (X6_out m c).symm
  · exact ((dat1 (Y5 m) c).arrAt_in w ((by decide : ∀ w : Fin 3, w ≠ 2 → (cfg1.win w).isOut = false) w h) _).trans
      ((A_eq1 (Y5 m) c w).trans (X6_of m c _ ((by decide : ∀ w : Fin 3, w ≠ 2 → Pipeline.arrRef spec1 w ≠ main_v72) w h)).symm)

theorem hF2 (c : Dev nD) (w : Fin 4) : (dat2 (Y6 m) c).arrAt w cfg2.N = Y7 m c (Pipeline.arrRef spec2 w) := by
  by_cases h : w = 3
  · subst h; exact (X7_out m c).symm
  · exact ((dat2 (Y6 m) c).arrAt_in w ((by decide : ∀ w : Fin 4, w ≠ 3 → (cfg2.win w).isOut = false) w h) _).trans
      ((A_eq2 (Y6 m) c w).trans (X7_of m c _ ((by decide : ∀ w : Fin 4, w ≠ 3 → Pipeline.arrRef spec2 w ≠ main_v73) w h)).symm)

theorem hF3 (c : Dev nD) (w : Fin 14) : (dat3 (Y8 m) c).arrAt w cfg3.N = Y9 m c (Pipeline.arrRef spec3 w) := by
  by_cases h : w = 13
  · subst h; exact (X9_out m c).symm
  · exact ((dat3 (Y8 m) c).arrAt_in w ((by decide : ∀ w : Fin 14, w ≠ 13 → (cfg3.win w).isOut = false) w h) _).trans
      ((A_eq3 (Y8 m) c w).trans (X9_of m c _ ((by decide : ∀ w : Fin 14, w ≠ 13 → Pipeline.arrRef spec3 w ≠ main_v90) w h)).symm)

def pdats : (p : Fin 4) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y5 m) c
  | ⟨2, _⟩ => fun c => dat2 (Y6 m) c
  | ⟨3, _⟩ => fun c => dat3 (Y8 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (X9 m c) ∗ ∃ r, prngReg c r)

theorem owes_in {cfg : Cfg sig Λ₀} {c : Dev nD} (dat : Dat τ (Elt F) Unit ℕ (UR sig nD τ) ℕ cfg c) (h : dat.owed 0 = 0)
    (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h]
  iintro ⟨%W, HO⟩
  iexists W
  isplitr
  · ipureintro; exact fun x _ => Or.inl (by rw [hr]; exact Set.mem_univ x)
  iexact HO

theorem owes_out {cfg : Cfg sig Λ₀} {c : Dev nD} (dat : Dat τ (Elt F) Unit ℕ (UR sig nD τ) ℕ cfg c) (t : Fin (cfg.N + 1)) (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩
  iexists W
  iexact HO

set_option backward.isDefEq.respectTransparency.types false in
-- A region as one step between two boundaries: its arrays go from the entry contents to what it leaves, every other buffer stays.
def regOf (p : Fin 4) (launch : Pipeline.LaunchFacts (nD := nD) (τ := τ) cfgs p) (Xi Xo : Dev nD → Valuation τ sig (Elt F))
    (hbody : ∀ c, BodyObligation (pdats m p c) (defs₀ (F := F)) Variants.none () Set.univ)
    (hq : ∀ c w, (pdats m p c).q w = fullShare)
    (hA : ∀ c w, (pdats m p c).A w = tcOf Xi c (Pipeline.arrRef (Pipeline.pin (pcfgs (F := F)) adm p).spec w))
    (howed : ∀ c t, (pdats m p c).owed t = 0) (hrec : ∀ c t, (pdats m p c).recorded t = Set.univ)
    (hin : ∀ c, (Pipeline.ΦA (Pipeline.pin (pcfgs (F := F)) adm p).spec c : sProp 𝕄) ⊢ (pdats m p c).Φ 0)
    (hout : ∀ c, (pdats m p c).Φ (Fin.last (Pipeline.pin (pcfgs (F := F)) adm p).N) ⊢ (Pipeline.ΦA (Pipeline.pin (pcfgs (F := F)) adm p).spec c : sProp 𝕄))
    (hF : ∀ c w, (pdats m p c).arrAt w (Pipeline.pin (pcfgs (F := F)) adm p).N = tcOf Xo c (Pipeline.arrRef (Pipeline.pin (pcfgs (F := F)) adm p).spec w))
    (hrest : ∀ c b, b ∉ Finset.univ.image (Pipeline.arrRef (Pipeline.pin (pcfgs (F := F)) adm p).spec) → tcOf Xo c b = tcOf Xi c b) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (tcOf Xi c)
  hentry c := by
    rw [Pipeline.ownSems0_none]
    have hsplit := Pipeline.arrays_of_unscopedBufs (p := p) (pcfgs (F := F)) adm (pdats m) launch.win launch.arr_whole c
      ((pdats m p c).share_full (hq c)) (tcOf Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in (pdats m p c) (howed c 0) (hrec c 0))
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (tcOf Xi c) (tcOf Xo c) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (pdats m p c) _ (howed c _))
    iexact HO

def reg0 := regOf m 0 launch0 (X1 m) (X2 m) (body_obligation0 (Y1 m)) (q_eq0 (Y1 m)) (A_eq0 (Y1 m)) (owed_eq0 (Y1 m)) (recorded_eq0 (Y1 m))
  (hin0 (Y1 m)) (hout0 (Y1 m)) (hF0 m) fun c b hb => X2_of m c b (not_arr spec0 7 hb)
def reg1 := regOf m 1 launch1 (X5 m) (X6 m) (body_obligation1 (Y5 m)) (q_eq1 (Y5 m)) (A_eq1 (Y5 m)) (owed_eq1 (Y5 m)) (recorded_eq1 (Y5 m))
  (hin1 (Y5 m)) (hout1 (Y5 m)) (hF1 m) fun c b hb => X6_of m c b (not_arr spec1 2 hb)
def reg2 := regOf m 2 launch2 (X6 m) (X7 m) (body_obligation2 (Y6 m)) (q_eq2 (Y6 m)) (A_eq2 (Y6 m)) (owed_eq2 (Y6 m)) (recorded_eq2 (Y6 m))
  (hin2 (Y6 m)) (hout2 (Y6 m)) (hF2 m) fun c b hb => X7_of m c b (not_arr spec2 3 hb)
def reg3 := regOf m 3 launch3 (X8 m) (X9 m) (body_obligation3 (Y8 m)) (q_eq3 (Y8 m)) (A_eq3 (Y8 m)) (owed_eq3 (Y8 m)) (recorded_eq3 (Y8 m))
  (hin3 (Y8 m)) (hout3 (Y8 m)) (hF3 m) fun c b hb => X9_of m c b (not_arr spec3 13 hb)

abbrev runSegs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .host (hseg hostOps1_1 hostOps1_1_sub hostOps1_1_fresh (X3 m)),
    .host (hseg hostOps1_2 hostOps1_2_sub hostOps1_2_fresh (X4 m)),
    .region (reg1 m),
    .region (reg2 m),
    .host (hseg hostOps3 hostOps3_sub hostOps3_fresh (X7 m)),
    .region (reg3 m) ]

variable (ρ : Dev nD → PrngReg)

set_option backward.isDefEq.respectTransparency.types false in

theorem run_post {Q : PUnit × MemSt nD τ sig (Elt F) → Prop}
    (hQ : ∀ s : MemSt nD τ sig (Elt F), (∀ c : Dev nD, ∀ b ∈ Pipeline.ucRefs τ sig, s.mem ((c : Thread nD τ).1, b) = X9 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (runSegs m)
    (fun c Q => by
      rewrite [main_chain c, Pipeline.Seg.run_eq_chain]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X9 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X9 m c b)
    (hfin := fun c s' => by
      iintro ⟨⟨Hh, -⟩, HSI⟩
      unfold StableHlo.held
      imodintro
      iapply (pointsTo_read_all (Pipeline.ucRefs τ sig) (fun b => (((c : Thread nD τ)).1, b)) (X9 m c) s')
      isplitl [Hh] <;> iassumption)
    (hQ := hQ)

end Cert.KernelIdeal.Hand

end
-- ==== Proof.KI.KValueCore.lean ====
import proofs.«410350_j46755013984839_3_alg».proof.Proof.KI.Run

noncomputable section

namespace Cert.KernelIdeal.Hand

open Cert.KernelIdeal Cert.KernelIdeal.Gen
open Idealize.ShloMosaic Idealize.ShloMosaic.TcCoe
open Idealize.ShloMosaic.ValueIdx

variable (m : (ℓ : Loc nD τ sig) → Buf (Elt Ideal) ℓ) (c : Dev nD)

abbrev arg (r : Ref sig .tc) := m ((c.tc : Thread nD τ).loc r)

abbrev ax : Fin 8192 → Fin 2048 → EReal := fun n i => (arg m c main_arg0 : S8192x2048.Idx → EReal) (ix2 n i)
abbrev aei : Fin 2 → Fin 262144 → ℤ := fun k e => ((arg m c main_arg1 : S2x262144.Idx → BitVec 32) (ix2 k e)).toInt
abbrev aew : Fin 262144 → EReal := fun e => (arg m c main_arg2 : S262144.Idx → EReal) (ix1 e)
abbrev asm : Fin 16384 → Fin 2 → ℤ := fun cn k => ((arg m c main_arg3 : S16384x2.Idx → BitVec 32) (ix2 cn k)).toInt
abbrev aw : Fin 16384 → EReal := fun cn => (arg m c main_arg4 : S16384.Idx → EReal) (ix1 cn)
abbrev ab : Fin 1024 → EReal := fun o => (arg m c main_arg5 : S1024.Idx → EReal) (ix1 o)
abbrev acw : Fin 3 → Fin 1024 → Fin 64 → EReal := fun k o f => (arg m c main_arg6 : S3x1024x64.Idx → EReal) (ix3 k o f)
abbrev acb : Fin 64 → EReal := fun f => (arg m c main_arg7 : S64.Idx → EReal) (ix1 f)
abbrev alw : Fin 2 → Fin 64 → EReal := fun q f => (arg m c main_arg8 : S2x64.Idx → EReal) (ix2 q f)
abbrev alb : Fin 2 → EReal := fun q => (arg m c main_arg9 : S2.Idx → EReal) (ix1 q)
abbrev agS : Fin 1024 → EReal := fun o => (arg m c main_arg10 : S1024.Idx → EReal) (ix1 o)
abbrev abeS : Fin 1024 → EReal := fun o => (arg m c main_arg11 : S1024.Idx → EReal) (ix1 o)
abbrev amuS : Fin 1024 → EReal := fun o => (arg m c main_arg12 : S1024.Idx → EReal) (ix1 o)
abbrev avarS : Fin 1024 → EReal := fun o => (arg m c main_arg13 : S1024.Idx → EReal) (ix1 o)
abbrev ag1 : Fin 64 → EReal := fun f => (arg m c main_arg14 : S64.Idx → EReal) (ix1 f)
abbrev abe1 : Fin 64 → EReal := fun f => (arg m c main_arg15 : S64.Idx → EReal) (ix1 f)
abbrev amu1 : Fin 64 → EReal := fun f => (arg m c main_arg16 : S64.Idx → EReal) (ix1 f)
abbrev avar1 : Fin 64 → EReal := fun f => (arg m c main_arg17 : S64.Idx → EReal) (ix1 f)

abbrev at0 : Fin 8192 → Fin 1024 → EReal :=
  Cert.Spec.tx0K (ax m c) (asm m c) (aw m c) (ab m c) (agS m c) (abeS m c) (amuS m c) (avarS m c)
abbrev aA : Fin 8192 → Fin 8192 → EReal := Cert.Spec.AK (aei m c) (aew m c)

-- An array that no segment up to a boundary writes holds there what was launched.
theorem X1_arg (r : Ref sig .tc) (h : r ∉ hostOps0_W) : X1 m c (Proc.devRef .tc r) = arg m c r := X1_of m c r h

theorem X2_arg (r : Ref sig .tc) (h : r ∉ hostOps0_W ∧ r ≠ main_v25) : X2 m c (Proc.devRef .tc r) = arg m c r :=
  (X2_of m c r h.2).trans (X1_of m c r h.1)

theorem X7_arg (r : Ref sig .tc) (h : r ∉ hostOps0_W ∧ r ≠ main_v25 ∧ r ∉ hostOps1_W ∧ r ∉ hostOps1_1_W ∧ r ∉ hostOps1_2_W
    ∧ r ≠ main_v72 ∧ r ≠ main_v73) : X7 m c (Proc.devRef .tc r) = arg m c r :=
  (X7_of m c r h.2.2.2.2.2.2).trans <| (X6_of m c r h.2.2.2.2.2.1).trans <| (X5_of m c r h.2.2.2.2.1).trans <|
    (X4_of m c r h.2.2.2.1).trans <| (X3_of m c r h.2.2.1).trans (X2_arg m c r ⟨h.1, h.2.1⟩)

-- A region's output reaches the later regions as that region left it.
theorem Y5_v25 : Y5 m c main_v25 = o2 m c :=
  (X5_of m c _ (by decide)).trans <| (X4_of m c _ (by decide)).trans <| (X3_of m c _ (by decide)).trans (X2_out m c)
theorem Y6_v25 : Y6 m c main_v25 = o2 m c := (X6_of m c _ (by decide)).trans (Y5_v25 m c)
theorem Y6_v72 : Y6 m c main_v72 = o6 m c := X6_out m c
theorem Y8_v25 : Y8 m c main_v25 = o2 m c := (X8_of m c _ (by decide)).trans <| (X7_of m c _ (by decide)).trans (Y6_v25 m c)
theorem Y8_v72 : Y8 m c main_v72 = o6 m c := (X8_of m c _ (by decide)).trans <| (X7_of m c _ (by decide)).trans (X6_out m c)
theorem Y8_v73 : Y8 m c main_v73 = o7 m c := (X8_of m c _ (by decide)).trans (X7_out m c)
theorem Y6_v71 : Y6 m c main_v71 = Y5 m c main_v71 := X6_of m c _ (by decide)

end Cert.KernelIdeal.Hand

end
-- ==== Proof.KI.Region0Value.lean ====
import proofs.«410350_j46755013984839_3_alg».proof.Proof.KI.Region0
import proofs.«410350_j46755013984839_3_alg».proof.Proof.Spec
import proofs.«410350_j46755013984839_3_alg».proof.Proof.LibMatmulAt
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx

theorem mm0_at (l : FVec Ideal S512x2048 .bf16) (r : FVec Ideal S2048x1024 .bf16) (p : Fin 512) (q : Fin 1024) :
    matmul dot_S512x2048_S2048x1024_S512x1024_1_0_0_1_n_n none l r (constant (F := Ideal) S512x1024 .f32 0x00000000#32) (ix2 p q)
      = ∑ k : Fin 2048, l (ix2 p k) * r (ix2 k q) :=
  MatmulAt.matmul_at _ rfl rfl
    (fun _ _ => rfl)
    (DotDims.lhsIdx_val_of_single _ rfl) (DotDims.rhsIdx_val_of_single _ rfl)
    (fun _ _ => rfl) none l r p q

theorem pay0_at (x : Vec Ideal S512x2048 .f32) (w : Vec Ideal S2048x1024 .bf16) (b g var be mu : Vec Ideal S1x1024 .f32)
    (p : Fin 512) (q : Fin 1024) :
    k0_pay1 (F := Ideal) x w b g var be mu (ix2 p q)
      = Cert.Spec.bnK (max ((∑ k : Fin 2048, x (ix2 p k) * w (ix2 k q)) + b (ix2 0 q)) 0)
          (g (ix2 0 q)) (be (ix2 0 q)) (mu (ix2 0 q)) (var (ix2 0 q)) := by
  unfold k0_pay1 Cert.Spec.bnK Cert.Spec.scale Cert.Spec.eps
  simp only [addf_apply, mulf_apply, subf_apply, maximumf_apply, broadcast_apply, broadcastTo_1b_ab_apply, shapeCast_self]
  rw [mm0_at]
  simp only [truncf_apply, Ideal.ofBits_def, Ideal.ofBits_zero_f32]
  rfl

section Value
variable (V : (c : Dev nD) → (b : Ref sig .tc) → Buf (Elt Ideal) ((c : Thread nD τ).loc b))

theorem hz0 : (![0, 0] : Fin 2 → Nat) = fun _ => 0 := funext fun a => by fin_cases a <;> rfl

theorem idx0 : ∀ (t : Fin cfg0.N) (w : Fin cfg0.W) (a : Fin (cfg0.win w).shape.rank),
    (cfg0.win w).index t a = if (w.val = 0 ∨ w.val = 7) ∧ a.val = 0 then t.val else 0 := by decide +kernel

theorem emb0 (t : Fin cfg0.N) (w : Fin cfg0.W) (y) (a) :
    (((cfg0.win w).rect t).emb y a : ℕ) = y a + (if (w.val = 0 ∨ w.val = 7) ∧ a.val = 0 then t.val else 0) * (cfg0.win w).size a := by
  rw [Pipeline.Window.rect_emb_val, idx0, Nat.add_comm]

theorem blkz0 (c : Dev nD) (t : Fin cfg0.N) : iblk0 V c 1 t = V c main_v19 ∧ iblk0 V c 2 t = V c main_v20 ∧ iblk0 V c 3 t = V c main_v21
    ∧ iblk0 V c 4 t = V c main_v22 ∧ iblk0 V c 5 t = V c main_v23 ∧ iblk0 V c 6 t = V c main_v24 := by
  refine ⟨?_, ?_, ?_, ?_, ?_, ?_⟩ <;> exact funext fun y => congrArg _ (Shape.idx_ext₂ (emb0 t _ y 0) (emb0 t _ y 1))

def G0 (c : Dev nD) : S8192x1024.Idx → EReal := fun i =>
  Cert.Spec.T0 (fun n k => V c main_arg0 (ix2 n k)) (fun k o => V c main_v19 (ix2 k o)) (fun o => V c main_v20 (ix2 0 o)) (fun o => V c main_v21 (ix2 0 o))
    (fun o => V c main_v22 (ix2 0 o)) (fun o => V c main_v23 (ix2 0 o)) (fun o => V c main_v24 (ix2 0 o)) (i 0) (i 1)

theorem flushed0_eq (c : Dev nD) (t : Fin cfg0.N) :
    (dat0 V c).flushed 7 t = ((cfg0.win 7).blk t).view.read (Elt Ideal) (G0 V c) := by
  obtain ⟨e1, e2, e3, e4, e5, e6⟩ := blkz0 V c t
  funext j
  obtain ⟨p, q, rfl⟩ : ∃ (p : Fin 512) (q : Fin 1024), j = ix2 p q := ⟨j 0, j 1, eq_ix2 j⟩
  have h0 : ∀ y, (((cfg0.win 0).rect t).emb y 0 : ℕ) = y 0 + t.val * 512 := fun y => emb0 t 0 y 0
  have h7 : (((cfg0.win 7).rect t).emb (ix2 p q) 0 : ℕ) = p + t.val * 512 := emb0 t 7 _ 0
  dsimp only [Dat.flushed, dat0]
  show out0_7 (F := Ideal) _ _ _ _ _ _ _ (ix2 p q) = G0 V c (((cfg0.win 7).rect t).emb (ix2 p q))
  rw [e1, e2, e3, e4, e5, e6]
  simp only [out0_7, ld0, View.canon_unit_zero (S := S512x1024) hz0, View.ld_unit_zero (S := S512x2048) hz0, View.ld_unit_zero (S := S2048x1024) hz0, View.ld_unit_zero (S := S1x1024) hz0, pay0_at]
  unfold G0 Cert.Spec.T0
  rw [show ((cfg0.win 7).rect t).emb (ix2 p q) 1 = q from Fin.ext (emb0 t 7 _ 1)]
  simp only [show ∀ k, iblk0 V c 0 t (ix2 p k) = V c main_arg0 (ix2 (((cfg0.win 7).rect t).emb (ix2 p q) 0) k) from fun k =>
    congrArg (V c main_arg0) (Shape.idx_ext₂ ((h0 _).trans h7.symm) (emb0 t 0 _ 1))]

theorem cover0 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by show _ < grid0.N; rw [N_0]; omega⟩, rfl⟩
  have h0 : win0_7.index t (0 : Fin 2) = t.val := idx0 t 7 0
  have h1 : win0_7.index t (1 : Fin 2) = 0 := idx0 t 7 1
  refine ⟨t, flush0_7 t, ?_⟩
  show i ∈ ((View.whole main_v25).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

end Value

theorem out0_value (V : (c : Dev nD) → (b : Ref sig .tc) → Buf (Elt Ideal) ((c : Thread nD τ).loc b)) (c : Dev nD) (n : Fin 8192) (o : Fin 1024) :
    ((dat0 V c).arrAt 7 cfg0.N : S8192x1024.Idx → EReal) (ix2 n o)
      = Cert.Spec.T0 (fun n i => (V c main_arg0 : S8192x2048.Idx → EReal) (ix2 n i)) (fun i o => (V c main_v19 : S2048x1024.Idx → EReal) (ix2 i o))
          (fun o => (V c main_v20 : S1x1024.Idx → EReal) (ix2 0 o)) (fun o => (V c main_v21 : S1x1024.Idx → EReal) (ix2 0 o)) (fun o => (V c main_v22 : S1x1024.Idx → EReal) (ix2 0 o)) (fun o => (V c main_v23 : S1x1024.Idx → EReal) (ix2 0 o)) (fun o => (V c main_v24 : S1x1024.Idx → EReal) (ix2 0 o)) n o :=
  congrFun ((dat0 V c).arrAt_eq_of_cover 7 (G0 V c) (fun t _ => flushed0_eq V c t) cover0) (ix2 n o)

end Cert.KernelIdeal.Hand

end
-- ==== Proof.LibBlockSum.lean ====
import Idealize.ShloMosaic.Lib.Pipeline.Value
import Mathlib.Data.EReal.Basic
import Mathlib.Logic.Equiv.Fin.Basic
import Mathlib.Algebra.BigOperators.Fin

namespace Cert.LibBlockSum

open Idealize.ShloMosaic
open scoped BigOperators

def blkIx (s : Fin 8) (k : Fin 1024) : Fin 8192 := ⟨1024 * s.val + k.val, by omega⟩

-- a sum over 8192 = 8 × 1024 indices regrouped into eight consecutive runs of 1024
theorem sum_blocks (f : Fin 8192 → EReal) : ∑ j : Fin 8192, f j = ∑ s : Fin 8, ∑ k : Fin 1024, f (blkIx s k) := by
  rw [← Equiv.sum_comp (finProdFinEquiv (m := 8) (n := 1024)) f, Fintype.sum_prod_type]
  refine Finset.sum_congr rfl fun s _ => Finset.sum_congr rfl fun k _ => congrArg f (Fin.ext ?_)
  show k.val + 1024 * s.val = 1024 * s.val + k.val
  omega

-- a quantity reset at the multiples of 8 and stepped by one addend a point is the sum of its run's addends
theorem fold_sum {ι : Type*} {N : ℕ} (f : (n : ℕ) → n < N → ι → EReal) (M : ℕ → ι → EReal)
    (h0 : ∀ n h i, n % 8 = 0 → f n h i = M n i)
    (hs : ∀ n h i, ¬(n + 1) % 8 = 0 → f (n + 1) h i = f n (Nat.lt_of_succ_lt h) i + M (n + 1) i)
    (t : ℕ) (ht : t < N) (i : ι) : f t ht i = ∑ s ∈ Finset.range (t % 8 + 1), M (8 * (t / 8) + s) i := by
  have h' : 8 * (t / 8) + t % 8 < N := by rw [Nat.div_add_mod]; exact ht
  have e := Pipeline.eq_accAt_of_mod f 8 (fun n _ i => M n i) (fun n _ acc i => acc i + M n i)
    (fun n hn hz => funext fun i => h0 n hn i hz) (fun n hn hz => funext fun i => hs n hn i hz) (by decide) t ht h'
  rw [congrFun e i, Pipeline.accAt_add_apply _ _ (fun _ => 0) M (8 * (t / 8)) 7 (fun _ _ => (zero_add _).symm)
    (fun _ _ _ _ _ _ => rfl) (t % 8) (by omega) h' i, zero_add]

end Cert.LibBlockSum
-- ==== Proof.KI.Region1Value.lean ====
import proofs.«410350_j46755013984839_3_alg».proof.Proof.KI.Region1
import proofs.«410350_j46755013984839_3_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
open Cert.LibBlockSum

section Value

theorem acc_pay1_at (i : S1024x1024.Idx) : (k1_pay1 (F := Ideal) : S1024x1024.Idx → EReal) i = 0 := by
  unfold k1_pay1
  simp only [shapeCast_self]
  exact Ideal.ofBits_zero_f32

-- the narrowing of z's block is the identity on extended reals
theorem acc_pay2_at (v3 v6 : FVec Ideal S1024x1024 .f32) (v7 : FVec Ideal S1024x1024 .bf16) (p q : Fin 1024) :
    (k1_pay2 (F := Ideal) v3 v6 v7 : S1024x1024.Idx → EReal) (ix2 p q)
      = (v6 (ix2 p q) : EReal) + ∑ k : Fin 1024, (v7 (ix2 p k) : EReal) * (v3 (ix2 k q) : EReal) := by
  unfold k1_pay2
  simp only [shapeCast_self]
  refine (addf_apply _ _ _).trans (congrArg (fun x : EReal => (v6 (ix2 p q) : EReal) + x) ?_)
  exact Idealize.ShloMosaic.MatmulAt.matmul_at dot_S1024x1024_S1024x1024_S1024x1024_1_0_0_1_n_n rfl rfl
    (fun _ _ => rfl) (fun _ _ => rfl) (fun _ _ => rfl) (fun _ _ => rfl) none v7 (truncf .bf16 v3 bitsLt_bf16_f32) p q

variable (V : (c : Dev nD) → (b : Ref sig .tc) → Buf (Elt Ideal) ((c : Thread nD τ).loc b)) (c : Dev nD) (t : Fin cfg1.N)

abbrev ablk : Vec Ideal S1024x1024 .bf16 := iblk1 V c 0 t
abbrev zblk : Vec Ideal S1024x1024 .f32 := iblk1 V c 1 t
abbrev Aarr : S8192x8192.Idx → EReal := V c main_v71
abbrev zarr : S8192x1024.Idx → EReal := V c main_v25

theorem lt64 : t.val < 64 := lt_of_lt_of_eq t.isLt (show cfg1.N = 64 from N_1)

def ti : Fin 8 := ⟨t.val / 8, by have := lt64 t; omega⟩
def tk : Fin 8 := ⟨t.val % 8, by omega⟩

theorem idx1 : ∀ t : Fin cfg1.N, (win1_0.index t (0 : Fin 2) = t.val / 8 ∧ win1_0.index t (1 : Fin 2) = t.val % 8)
    ∧ (win1_1.index t (0 : Fin 2) = t.val % 8 ∧ win1_1.index t (1 : Fin 2) = 0) ∧ (win1_2.index t (0 : Fin 2) = t.val / 8 ∧ win1_2.index t (1 : Fin 2) = 0) := by decide +kernel

theorem ablk_at (p k : Fin 1024) :
    (ablk V c t : S1024x1024.Idx → EReal) (ix2 p k) = Aarr V c (ix2 (blkIx (ti t) p) (blkIx (tk t) k)) := by
  have hi := (idx1 t).1
  unfold ablk iblk1
  rw [View.read_apply]
  show V c main_v71 _ = V c main_v71 _
  congr 1
  funext a
  apply Fin.ext
  match a with
  | ⟨0, _⟩ => show win1_0.index t (0 : Fin 2) * 1024 + 1 * p.val = 1024 * (t.val / 8) + p.val; rw [hi.1]; omega
  | ⟨1, _⟩ => show win1_0.index t (1 : Fin 2) * 1024 + 1 * k.val = 1024 * (t.val % 8) + k.val; rw [hi.2]; omega

theorem zblk_at (k q : Fin 1024) :
    (zblk V c t : S1024x1024.Idx → EReal) (ix2 k q) = zarr V c (ix2 (blkIx (tk t) k) q) := by
  have hi := (idx1 t).2.1
  unfold zblk iblk1
  rw [View.read_apply]
  show V c main_v25 _ = V c main_v25 _
  congr 1
  funext a
  apply Fin.ext
  match a with
  | ⟨0, _⟩ => show win1_1.index t (0 : Fin 2) * 1024 + 1 * k.val = 1024 * (t.val % 8) + k.val; rw [hi.1]; omega
  | ⟨1, _⟩ => show win1_1.index t (1 : Fin 2) * 1024 + 1 * q.val = q.val; rw [hi.2]; omega

def prodAt (n : ℕ) (i : S1024x1024.Idx) : EReal :=
  if h : n < cfg1.N then ∑ k : Fin 1024, ((ablk V c ⟨n, h⟩ : S1024x1024.Idx → EReal) (ix2 (i 0) k)) * ((zblk V c ⟨n, h⟩ : S1024x1024.Idx → EReal) (ix2 k (i 1))) else 0

theorem prodAt_ix (n : ℕ) (h : n < cfg1.N) (p q : Fin 1024) :
    prodAt V c n (ix2 p q) = ∑ k : Fin 1024, ((ablk V c ⟨n, h⟩ : S1024x1024.Idx → EReal) (ix2 p k)) * ((zblk V c ⟨n, h⟩ : S1024x1024.Idx → EReal) (ix2 k q)) := by
  unfold prodAt
  rw [dif_pos h]

theorem step_apply (n : ℕ) (h : n < cfg1.N) (acc : S1024x1024.Idx → EReal) (i : S1024x1024.Idx) :
    (k1_pay2 (F := Ideal) (zblk V c ⟨n, h⟩) acc (ablk V c ⟨n, h⟩) : S1024x1024.Idx → EReal) i = acc i + prodAt V c n i := by
  obtain ⟨p, q, rfl⟩ : ∃ (p q : Fin 1024), i = ix2 p q := ⟨i 0, i 1, eq_ix2 i⟩
  exact (acc_pay2_at (zblk V c ⟨n, h⟩) acc (ablk V c ⟨n, h⟩) p q).trans (by rw [prodAt_ix V c n h p q])

theorem acc_reset (n : ℕ) (h : n < cfg1.N) (i : S1024x1024.Idx) (hz : n % 8 = 0) :
    (acc1 V c n h : S1024x1024.Idx → EReal) i = prodAt V c n i := by
  have e : acc1 V c n h = k1_pay2 (zblk V c ⟨n, h⟩) (k1_pay1 (F := Ideal)) (ablk V c ⟨n, h⟩) := by
    cases n with
    | zero => show k1_pay2 _ (if _ then _ else _) _ = _; rw [ite_self]
    | succ n => show k1_pay2 _ (if _ then _ else _) _ = _; rw [if_pos ((hcond1 ⟨_, h⟩).1.2 hz)]
  rw [e, step_apply, acc_pay1_at, zero_add]

theorem acc_step (n : ℕ) (h : n + 1 < cfg1.N) (i : S1024x1024.Idx) (hz : ¬(n + 1) % 8 = 0) :
    (acc1 V c (n + 1) h : S1024x1024.Idx → EReal) i = (acc1 V c n (Nat.lt_of_succ_lt h) : S1024x1024.Idx → EReal) i + prodAt V c (n + 1) i := by
  show (k1_pay2 (F := Ideal) _ (if _ then _ else _) _ : S1024x1024.Idx → EReal) i = _
  rw [if_neg fun hc => hz ((hcond1 ⟨_, h⟩).1.1 hc)]
  exact step_apply V c (n + 1) h _ i

-- the block products of a row of the grid, summed in the order of the inner coordinate
theorem acc_at (i : S1024x1024.Idx) :
    (acc1 V c t.val t.isLt : S1024x1024.Idx → EReal) i = ∑ s ∈ Finset.range (t.val % 8 + 1), prodAt V c (8 * (t.val / 8) + s) i :=
  fold_sum (fun n h => (acc1 V c n h : S1024x1024.Idx → EReal)) (prodAt V c) (acc_reset V c) (acc_step V c) t.val t.isLt i

theorem out_at (h7 : t.val % 8 = 7) (p q : Fin 1024) :
    (acc1 V c t.val t.isLt : S1024x1024.Idx → EReal) (ix2 p q)
      = Cert.Spec.P1 (fun n j => Aarr V c (ix2 n j)) (fun j f => zarr V c (ix2 j f)) (blkIx (ti t) p) q := by
  rw [acc_at V c t (ix2 p q), h7, Finset.sum_range]
  unfold Cert.Spec.P1
  rw [sum_blocks]
  refine Finset.sum_congr rfl fun s _ => ?_
  have hs : 8 * (t.val / 8) + s.val < cfg1.N :=
    lt_of_lt_of_eq (show 8 * (t.val / 8) + s.val < 64 by have := lt64 t; have := s.isLt; omega) (show (64 : ℕ) = cfg1.N from N_1.symm)
  rw [prodAt_ix V c _ hs p q]
  refine Finset.sum_congr rfl fun k _ => ?_
  rw [ablk_at, zblk_at]
  have e1 : ti ⟨8 * (t.val / 8) + s.val, hs⟩ = ti t := Fin.ext (by show (8 * (t.val / 8) + s.val) / 8 = t.val / 8; have := s.isLt; omega)
  have e2 : tk ⟨8 * (t.val / 8) + s.val, hs⟩ = s := Fin.ext (by show (8 * (t.val / 8) + s.val) % 8 = s.val; have := s.isLt; omega)
  rw [e1, e2]

def G1 : S8192x1024.Idx → EReal := fun i =>
  Cert.Spec.P1 (fun n j => Aarr V c (ix2 n j)) (fun j f => zarr V c (ix2 j f)) ⟨(i 0).val, idx2_lt0 i⟩ ⟨(i 1).val, idx2_lt1 i⟩

theorem flushed1_eq (hf : (cfg1.win 2).flush t = true) :
    (dat1 V c).flushed 2 t = ((cfg1.win 2).blk t).view.read (Elt Ideal) (G1 V c) := by
  have h7 : t.val % 8 = 7 := (flush1_2 t).mp hf
  have hi := (idx1 t).2.2
  show (cfg1.win 2).cut (grid1.coords t) (acc1 V c t.val t.isLt) = _
  funext j
  obtain ⟨p, q, rfl⟩ : ∃ (p q : Fin 1024), j = ix2 p q := ⟨j 0, j 1, eq_ix2 j⟩
  show (acc1 V c t.val t.isLt : S1024x1024.Idx → EReal) (ix2 p q) = G1 V c (((cfg1.win 2).blk t).view.emb (ix2 p q))
  rw [out_at V c t h7 p q]
  unfold G1
  refine congrArg₂ (Cert.Spec.P1 (fun n j => Aarr V c (ix2 n j)) (fun j f => zarr V c (ix2 j f))) ?_ ?_
  · apply Fin.ext
    show 1024 * (t.val / 8) + p.val = win1_2.index t (0 : Fin 2) * 1024 + 1 * p.val
    rw [hi.1]; omega
  · apply Fin.ext
    show q.val = win1_2.index t (1 : Fin 2) * 1024 + 1 * q.val
    rw [hi.2]; omega

-- every row lies in the block of the point (row / 1024, 7)
theorem cover1 (i : S8192x1024.Idx) : ∃ t : Fin cfg1.N, (cfg1.win 2).flush t = true ∧ i ∈ ((cfg1.win 2).blk t).view.set := by
  have hi0 : (i 0).val < 8192 := idx2_lt0 i
  have hi1 : (i 1).val < 1024 := idx2_lt1 i
  have hN : cfg1.N = 64 := N_1
  let t : Fin cfg1.N := ⟨8 * ((i 0).val / 1024) + 7, by rw [hN]; omega⟩
  have ht : t.val = 8 * ((i 0).val / 1024) + 7 := rfl
  obtain ⟨q0, q1⟩ := (idx1 t).2.2
  refine ⟨t, (flush1_2 t).mpr (by rw [ht]; omega), ?_⟩
  show i ∈ ((View.whole main_v72).slice (win1_2.rect t)).set
  rw [View.set_slice_whole, Rect.mem_set_unit]
  intro a
  match a with
  | ⟨0, _⟩ => show win1_2.index t (0 : Fin 2) * 1024 ≤ (i 0).val ∧ (i 0).val < win1_2.index t (0 : Fin 2) * 1024 + 1024; rw [q0, ht]; omega
  | ⟨1, _⟩ => show win1_2.index t (1 : Fin 2) * 1024 ≤ (i 1).val ∧ (i 1).val < win1_2.index t (1 : Fin 2) * 1024 + 1024; rw [q1]; omega

theorem out1_value (n : Fin 8192) (f : Fin 1024) :
    ((dat1 V c).arrAt 2 cfg1.N : S8192x1024.Idx → EReal) (ix2 n f)
      = Cert.Spec.P1 (fun n j => (V c main_v71 : S8192x8192.Idx → EReal) (ix2 n j)) (fun j f => (V c main_v25 : S8192x1024.Idx → EReal) (ix2 j f)) n f :=
  (congrFun ((dat1 V c).arrAt_eq_of_cover 2 (G1 V c) (flushed1_eq V c) cover1) (ix2 n f)).trans rfl

end Value

end Cert.KernelIdeal.Hand

end
-- ==== Proof.KI.Region2Value.lean ====
import proofs.«410350_j46755013984839_3_alg».proof.Proof.KI.Region2
import proofs.«410350_j46755013984839_3_alg».proof.Proof.Spec
import proofs.«410350_j46755013984839_3_alg».proof.Proof.LibMatmulAt
import proofs.«410350_j46755013984839_3_alg».proof.Proof.LibBlockSum
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.ValueIdx
open scoped BigOperators
open Cert.LibBlockSum

theorem idx2 : ∀ t : Fin cfg2.N, (win2_0.index t 0 = t.val / 8 ∧ win2_0.index t 1 = t.val % 8) ∧ (win2_1.index t 0 = t.val % 8 ∧ win2_1.index t 1 = 0)
    ∧ (win2_2.index t 0 = t.val / 8 ∧ win2_2.index t 1 = 0) ∧ (win2_3.index t 0 = t.val / 8 ∧ win2_3.index t 1 = 0) := by decide +kernel

theorem lt_of_pt (t : Fin cfg2.N) : t.val < 64 := lt_of_lt_of_eq t.isLt (show cfg2.N = 64 from N_2)

-- the bf16 narrowing is the identity on extended reals, so the product's entry is the plain sum over k
theorem k2_pay2_at (v3 v6 : Vec Ideal S1024x1024 .f32) (v7 : Vec Ideal S1024x1024 .bf16) (p q : Fin 1024) :
    (k2_pay2 v3 v6 v7 : S1024x1024.Idx → EReal) (ix2 p q)
      = (v6 : S1024x1024.Idx → EReal) (ix2 p q) + ∑ k : Fin 1024, (v7 : S1024x1024.Idx → EReal) (ix2 p k) * (v3 : S1024x1024.Idx → EReal) (ix2 k q) := by
  unfold k2_pay2
  simp only [shapeCast_self]
  rw [addf_apply]
  congr 1
  exact MatmulAt.matmul_at dot_S1024x1024_S1024x1024_S1024x1024_1_0_0_1_n_n rfl rfl
    (fun _ _ => rfl) (fun _ _ => rfl) (fun _ _ => rfl) (fun _ _ => rfl) none _ _ p q

theorem k2_pay3_at (v17 v20 : Vec Ideal S1024x1024 .f32) (i : S1024x1024.Idx) :
    (k2_pay3 v17 v20 : S1024x1024.Idx → EReal) i = Cert.Spec.two * (v17 : S1024x1024.Idx → EReal) i - (v20 : S1024x1024.Idx → EReal) i := by
  unfold k2_pay3
  simp only [shapeCast_self]
  rfl

theorem k2_pay1_at (i : S1024x1024.Idx) : (k2_pay1 (F := Ideal) : S1024x1024.Idx → EReal) i = 0 := by
  unfold k2_pay1
  simp only [shapeCast_self]
  exact Ideal.ofBits_zero_f32

section Value
variable (V : (c : Dev nD) → (b : Ref sig .tc) → Buf (Elt Ideal) ((c : Thread nD τ).loc b)) (c : Dev nD)

theorem iblk2_0_at (t : Fin cfg2.N) (p k : Fin 1024) :
    (iblk2 V c 0 t : Vec Ideal S1024x1024 .bf16) (ix2 p k)
      = (V c main_v71 : Vec Ideal S8192x8192 .bf16) (ix2 ⟨1024 * (t.val / 8) + p.val, by have := lt_of_pt t; omega⟩ ⟨1024 * (t.val % 8) + k.val, by omega⟩) := by
  unfold iblk2
  rw [View.read_apply]
  show V c main_v71 _ = V c main_v71 _
  congr 1
  funext a
  apply Fin.ext
  match a with
  | ⟨0, _⟩ => show win2_0.index t 0 * 1024 + 1 * p.val = 1024 * (t.val / 8) + p.val; rw [(idx2 t).1.1]; omega
  | ⟨1, _⟩ => show win2_0.index t 1 * 1024 + 1 * k.val = 1024 * (t.val % 8) + k.val; rw [(idx2 t).1.2]; omega

theorem iblk2_1_at (t : Fin cfg2.N) (k q : Fin 1024) :
    (iblk2 V c 1 t : Vec Ideal S1024x1024 .f32) (ix2 k q)
      = (V c main_v72 : Vec Ideal S8192x1024 .f32) (ix2 ⟨1024 * (t.val % 8) + k.val, by omega⟩ q) := by
  unfold iblk2
  rw [View.read_apply]
  show V c main_v72 _ = V c main_v72 _
  congr 1
  funext a
  apply Fin.ext
  match a with
  | ⟨0, _⟩ => show win2_1.index t 0 * 1024 + 1 * k.val = 1024 * (t.val % 8) + k.val; rw [(idx2 t).2.1.1]; omega
  | ⟨1, _⟩ => show win2_1.index t 1 * 1024 + 1 * q.val = q.val; rw [(idx2 t).2.1.2]; omega

theorem iblk2_2_at (t : Fin cfg2.N) (p q : Fin 1024) :
    (iblk2 V c 2 t : Vec Ideal S1024x1024 .f32) (ix2 p q)
      = (V c main_v25 : Vec Ideal S8192x1024 .f32) (ix2 ⟨1024 * (t.val / 8) + p.val, by have := lt_of_pt t; omega⟩ q) := by
  unfold iblk2
  rw [View.read_apply]
  show V c main_v25 _ = V c main_v25 _
  congr 1
  funext a
  apply Fin.ext
  match a with
  | ⟨0, _⟩ => show win2_2.index t 0 * 1024 + 1 * p.val = 1024 * (t.val / 8) + p.val; rw [(idx2 t).2.2.1.1]; omega
  | ⟨1, _⟩ => show win2_2.index t 1 * 1024 + 1 * q.val = q.val; rw [(idx2 t).2.2.1.2]; omega

def blkA2 (t : Fin cfg2.N) : S1024x1024.Idx → EReal := iblk2 V c 0 t
def blkZ2 (t : Fin cfg2.N) : S1024x1024.Idx → EReal := iblk2 V c 1 t

def addend2 (n : ℕ) (i : S1024x1024.Idx) : EReal :=
  if h : n < cfg2.N then ∑ k : Fin 1024, blkA2 V c ⟨n, h⟩ (ix2 (i 0) k) * blkZ2 V c ⟨n, h⟩ (ix2 k (i 1)) else 0

-- a point adds its product to what it starts from: zero at a row's first point, the running sum elsewhere
theorem acc'_apply (n : ℕ) (h : n < cfg2.N) (acc : Vec Ideal S1024x1024 .f32) (i : S1024x1024.Idx) :
    (acc' (grid2.coords ⟨n, h⟩) (iblk2 V c 0 ⟨n, h⟩) (iblk2 V c 1 ⟨n, h⟩) acc : S1024x1024.Idx → EReal) i
      = (if n % 8 = 0 then 0 else (acc : S1024x1024.Idx → EReal) i) + addend2 V c n i := by
  obtain ⟨p, q, rfl⟩ : ∃ p q : Fin 1024, i = ix2 p q := ⟨i 0, i 1, eq_ix2 i⟩
  unfold acc' addend2
  rw [k2_pay2_at, dif_pos h]
  by_cases h0 : n % 8 = 0
  · rw [if_pos h0, if_pos ((hcond2 ⟨n, h⟩).1.2 h0), k2_pay1_at]; rfl
  · rw [if_neg h0, if_neg fun hc => h0 ((hcond2 ⟨n, h⟩).1.1 hc)]; rfl

-- at a block-row's last point the accumulator holds the sum of the row's eight products
theorem acc_last2 (t : Fin cfg2.N) (h7 : t.val % 8 = 7) (i : S1024x1024.Idx) :
    (acc2 V c t.val t.isLt : S1024x1024.Idx → EReal) i = ∑ s ∈ Finset.range 8, addend2 V c (8 * (t.val / 8) + s) i :=
  (fold_sum (fun n h => (acc2 V c n h : S1024x1024.Idx → EReal)) (addend2 V c)
    (fun n h i m => by cases n <;> exact (acc'_apply V c _ h _ i).trans (by rw [if_pos m, zero_add]))
    (fun n h i m => (acc'_apply V c (n + 1) h _ i).trans (by rw [if_neg m])) t.val t.isLt i).trans (by rw [h7])

def opA2 (n j : Fin 8192) : EReal := (V c main_v71 : S8192x8192.Idx → EReal) (ix2 n j)
def opZ2 (j : Fin 8192) (f : Fin 1024) : EReal := (V c main_v72 : S8192x1024.Idx → EReal) (ix2 j f)
def opR2 (n : Fin 8192) (f : Fin 1024) : EReal := (V c main_v25 : S8192x1024.Idx → EReal) (ix2 n f)

-- the eight products of a block-row, summed, are the operator's whole row against z's whole column
theorem row_sum2 (t : Fin cfg2.N) (p q : Fin 1024) :
    ∑ s ∈ Finset.range 8, addend2 V c (8 * (t.val / 8) + s) (ix2 p q)
      = ∑ j : Fin 8192, opA2 V c ⟨1024 * (t.val / 8) + p.val, by have := lt_of_pt t; omega⟩ j * opZ2 V c j q := by
  have hN := lt_of_pt t
  rw [sum_blocks, Finset.sum_range]
  refine Finset.sum_congr rfl fun s _ => ?_
  have hlt : 8 * (t.val / 8) + s.val < cfg2.N := by have hNN : cfg2.N = 64 := N_2; omega
  have a1 : (8 * (t.val / 8) + s.val) / 8 = t.val / 8 := by omega
  have a2 : (8 * (t.val / 8) + s.val) % 8 = s.val := by omega
  unfold addend2
  rw [dif_pos hlt]
  refine Finset.sum_congr rfl fun k _ => ?_
  show blkA2 V c ⟨8 * (t.val / 8) + s.val, hlt⟩ (ix2 p k) * blkZ2 V c ⟨8 * (t.val / 8) + s.val, hlt⟩ (ix2 k q) = _
  rw [show blkA2 V c _ (ix2 p k) = _ from iblk2_0_at V c _ p k, show blkZ2 V c _ (ix2 k q) = _ from iblk2_1_at V c _ k q]
  simp only [Fin.val_mk, a1, a2]
  rfl

theorem cover2_3 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨T, hT⟩ : ∃ T : Fin cfg2.N, T.val = 8 * ((i 0).val / 1024) + 7 := ⟨⟨_, by have hNN : cfg2.N = 64 := N_2; omega⟩, rfl⟩
  refine ⟨T, (flush2_3 _).mpr (by omega), ?_⟩
  show i ∈ ((View.whole main_v73).slice (win2_3.rect T)).set
  rw [View.set_slice_whole, Rect.mem_set_unit]
  intro a
  match a with
  | ⟨0, _⟩ =>
    show win2_3.index T 0 * 1024 ≤ (i 0).val ∧ (i 0).val < win2_3.index T 0 * 1024 + 1024
    rw [(idx2 T).2.2.2.1]; omega
  | ⟨1, _⟩ =>
    show win2_3.index T 1 * 1024 ≤ (i 1).val ∧ (i 1).val < win2_3.index T 1 * 1024 + 1024
    rw [(idx2 T).2.2.2.2]; omega

theorem out2_value (n : Fin 8192) (f : Fin 1024) :
    ((dat2 V c).arrAt 3 cfg2.N : S8192x1024.Idx → EReal) (ix2 n f)
      = Cert.Spec.P2 (fun n j => (V c main_v71 : S8192x8192.Idx → EReal) (ix2 n j)) (fun j f => (V c main_v72 : S8192x1024.Idx → EReal) (ix2 j f)) (fun n f => (V c main_v25 : S8192x1024.Idx → EReal) (ix2 n f)) n f :=
  (dat2 V c).arrAt_forall_of_cover 3 (fun (i : S8192x1024.Idx) (v : EReal) => v = Cert.Spec.P2 (opA2 V c) (opZ2 V c) (opR2 V c) (i 0) (i 1))
    (fun t hf y => by
      have h7 : t.val % 8 = 7 := (flush2_3 t).mp hf
      have hN := lt_of_pt t
      obtain ⟨p, q, rfl⟩ : ∃ p q : Fin 1024, y = ix2 p q := ⟨y 0, y 1, eq_ix2 y⟩
      show _root_.cast _ ((k2_pay3 (acc2 V c t.val t.isLt) (iblk2 V c 2 t) : S1024x1024.Idx → EReal) (ix2 p q)) = _
      rw [cast_eq, k2_pay3_at, acc_last2 V c t h7, iblk2_2_at, row_sum2 V c t p q]
      refine congrArg (fun i : S8192x1024.Idx => Cert.Spec.P2 (opA2 V c) (opZ2 V c) (opR2 V c) (i 0) (i 1)) (?_ : ix2 ⟨1024 * (t.val / 8) + p.val, by omega⟩ q = _)
      funext a
      apply Fin.ext
      match a with
      | ⟨0, _⟩ => show 1024 * (t.val / 8) + p.val = win2_3.index t 0 * 1024 + 1 * p.val; rw [(idx2 t).2.2.2.1]; omega
      | ⟨1, _⟩ => show q.val = win2_3.index t 1 * 1024 + 1 * q.val; rw [(idx2 t).2.2.2.2]; omega)
    (cover2_3) (ix2 n f)

end Value

end Cert.KernelIdeal.Hand

end
-- ==== Proof.KI.Region3Value.lean ====
import proofs.«410350_j46755013984839_3_alg».proof.Proof.KI.Region3
import proofs.«410350_j46755013984839_3_alg».proof.Proof.Spec
import proofs.«410350_j46755013984839_3_alg».proof.Proof.LibMatmulAt
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx
open scoped BigOperators

section Payloads

theorem matW_at {φ₁ φ₂ : FTy} (l : FVec Ideal S1024x1024 φ₁) (r : FVec Ideal S1024x64 φ₂) (p : Fin 1024) (f : Fin 64) :
    matmul dot_S1024x1024_S1024x64_S1024x64_1_0_0_1_n_n none l r (constant (F := Ideal) S1024x64 .f32 0x00000000#32) (ix2 p f)
      = ∑ o : Fin 1024, l (ix2 p o) * r (ix2 o f) :=
  MatmulAt.matmul_at _ rfl rfl (fun _ _ => rfl) (DotDims.lhsIdx_val_of_single _ rfl) (DotDims.rhsIdx_val_of_single _ rfl) (fun _ _ => rfl) none l r p f

theorem matH_at {φ₁ φ₂ : FTy} (l : FVec Ideal S1024x64 φ₁) (r : FVec Ideal S64x2 φ₂) (p : Fin 1024) (q : Fin 2) :
    matmul dot_S1024x64_S64x2_S1024x2_1_0_0_1_n_n (some .fp32) l r (constant (F := Ideal) S1024x2 .f32 0x00000000#32) (ix2 p q)
      = ∑ f : Fin 64, l (ix2 p f) * r (ix2 f q) :=
  MatmulAt.matmul_at _ rfl rfl (fun _ _ => rfl) (DotDims.lhsIdx_val_of_single _ rfl) (DotDims.rhsIdx_val_of_single _ rfl) (fun _ _ => rfl) (some .fp32) l r p q

theorem pay3_at (v26 v28 : Vec Ideal S1x64 .f32) (f : Fin 64) :
    (k3_pay3 (F := Ideal) v26 v28 : S1x64.Idx → EReal) (ix2 0 f)
      = Cert.Spec.scale ((v26 : S1x64.Idx → EReal) (ix2 0 f)) ((v28 : S1x64.Idx → EReal) (ix2 0 f)) := by
  unfold k3_pay3 Cert.Spec.scale Cert.Spec.eps
  simp only [shapeCast_self]
  rfl

theorem pay2_at (v0 v3 v6 : Vec Ideal S1024x1024 .f32) (v9 v12 v16 : Vec Ideal S1024x64 .bf16) (v20 : Vec Ideal S1x64 .f32)
    (p : Fin 1024) (f : Fin 64) :
    (k3_pay2 (F := Ideal) v0 v3 v6 v9 v12 v16 v20 : S1024x64.Idx → EReal) (ix2 p f)
      = max (((((∑ o : Fin 1024, (v0 : S1024x1024.Idx → EReal) (ix2 p o) * (v9 : S1024x64.Idx → EReal) (ix2 o f))
          + (∑ o : Fin 1024, (v3 : S1024x1024.Idx → EReal) (ix2 p o) * (v12 : S1024x64.Idx → EReal) (ix2 o f)))
          + (∑ o : Fin 1024, (v6 : S1024x1024.Idx → EReal) (ix2 p o) * (v16 : S1024x64.Idx → EReal) (ix2 o f)))
          + (v20 : S1x64.Idx → EReal) (ix2 0 f))) 0 := by
  unfold k3_pay2
  simp only [shapeCast_self]
  rw [maximumf_apply, addf_apply, addf_apply, addf_apply, matW_at, matW_at, matW_at, broadcastTo_1b_ab_apply, broadcast_apply]
  simp only [truncf_apply]
  show max _ (Ideal.ofBits .f32 0x00000000#32) = _
  rw [Ideal.ofBits_zero_f32]

theorem pay1_at (v25 : FVec Ideal S1024x64 .f32) (v33 : FVec Ideal S1x64 .f32) (v34 v36 : Vec Ideal S1x64 .f32)
    (v44 : Vec Ideal S64x2 .f32) (v47 : Vec Ideal S1x2 .f32) (p : Fin 1024) (q : Fin 2) :
    (k3_pay1 (F := Ideal) v25 v33 v34 v36 v44 v47 : S1024x2.Idx → EReal) (ix2 p q)
      = (∑ f : Fin 64, ((v25 : S1024x64.Idx → EReal) (ix2 p f) * (v33 : S1x64.Idx → EReal) (ix2 0 f)
            + ((v34 : S1x64.Idx → EReal) (ix2 0 f) - (v36 : S1x64.Idx → EReal) (ix2 0 f) * (v33 : S1x64.Idx → EReal) (ix2 0 f)))
          * (v44 : S64x2.Idx → EReal) (ix2 f q)) + (v47 : S1x2.Idx → EReal) (ix2 0 q) := by
  unfold k3_pay1
  simp only [shapeCast_self]
  rw [addf_apply, matH_at, broadcastTo_1b_ab_apply]
  simp only [addf_apply, mulf_apply, subf_apply, broadcastTo_1b_ab_apply]

end Payloads

section Value
variable (V : (c : Dev nD) → (b : Ref sig .tc) → Buf (Elt Ideal) ((c : Thread nD τ).loc b)) (c : Dev nD)

theorem hz3 : (![0, 0] : Fin 2 → Nat) = fun _ => 0 := funext fun a => by fin_cases a <;> rfl

theorem idx3 : ∀ (t : Fin cfg3.N) (w : Fin cfg3.W) (a : Fin (cfg3.win w).shape.rank),
    (cfg3.win w).index t a = if (w.val < 3 ∨ w.val = 13) ∧ a.val = 0 then t.val else 0 := by decide +kernel

theorem emb3 (t : Fin cfg3.N) (w : Fin cfg3.W) (y) (a) :
    (((cfg3.win w).rect t).emb y a : ℕ) = y a + (if (w.val < 3 ∨ w.val = 13) ∧ a.val = 0 then t.val else 0) * (cfg3.win w).size a := by
  rw [Pipeline.Window.rect_emb_val, idx3, Nat.add_comm]

-- Row p of point t's block is row 1024 · t + p of the arrays.
def rowOf (t : Fin cfg3.N) (p : Fin 1024) : Fin 8192 :=
  ⟨t.val * 1024 + p.val, by have ht : t.val < grid3.N := t.isLt; rw [N_3] at ht; have := p.isLt; omega⟩

theorem read0 (t : Fin cfg3.N) (p : Fin 1024) (o : Fin 1024) :
    (iblk3 V c 0 t : S1024x1024.Idx → EReal) (ix2 p o) = (V c main_v25 : S8192x1024.Idx → EReal) (ix2 (rowOf t p) o) :=
  congrArg (V c main_v25 : S8192x1024.Idx → EReal) (Shape.idx_ext₂ ((emb3 t 0 _ 0).trans (Nat.add_comm _ _)) (emb3 t 0 _ 1))
theorem read1 (t : Fin cfg3.N) (p : Fin 1024) (o : Fin 1024) :
    (iblk3 V c 1 t : S1024x1024.Idx → EReal) (ix2 p o) = (V c main_v72 : S8192x1024.Idx → EReal) (ix2 (rowOf t p) o) :=
  congrArg (V c main_v72 : S8192x1024.Idx → EReal) (Shape.idx_ext₂ ((emb3 t 1 _ 0).trans (Nat.add_comm _ _)) (emb3 t 1 _ 1))
theorem read2 (t : Fin cfg3.N) (p : Fin 1024) (o : Fin 1024) :
    (iblk3 V c 2 t : S1024x1024.Idx → EReal) (ix2 p o) = (V c main_v73 : S8192x1024.Idx → EReal) (ix2 (rowOf t p) o) :=
  congrArg (V c main_v73 : S8192x1024.Idx → EReal) (Shape.idx_ext₂ ((emb3 t 2 _ 0).trans (Nat.add_comm _ _)) (emb3 t 2 _ 1))

theorem blkz3 (t : Fin cfg3.N) : iblk3 V c 3 t = V c main_v76 ∧ iblk3 V c 4 t = V c main_v79 ∧ iblk3 V c 5 t = V c main_v82 ∧ iblk3 V c 6 t = V c main_v84 ∧ iblk3 V c 7 t = V c main_v85 ∧ iblk3 V c 8 t = V c main_v86 ∧ iblk3 V c 9 t = V c main_v87 ∧ iblk3 V c 10 t = V c main_v88 ∧ iblk3 V c 11 t = V c main_v83 ∧ iblk3 V c 12 t = V c main_v89 := by
  refine ⟨?_, ?_, ?_, ?_, ?_, ?_, ?_, ?_, ?_, ?_⟩ <;> exact funext fun y => congrArg _ (Shape.idx_ext₂ (emb3 t _ y 0) (emb3 t _ y 1))

theorem emb13 (t : Fin cfg3.N) (p : Fin 1024) (q : Fin 2) :
    ((cfg3.win 13).blk t).view.emb (ix2 p q) = (ix2 (rowOf t p) q : S8192x2.Idx) :=
  Shape.idx_ext₂ ((emb3 t 13 _ 0).trans (Nat.add_comm _ _)) (emb3 t 13 _ 1)

def G3 : S8192x2.Idx → EReal := fun i =>
  Cert.Spec.T3 (fun n o => (V c main_v25 : S8192x1024.Idx → EReal) (ix2 n o)) (fun n o => (V c main_v72 : S8192x1024.Idx → EReal) (ix2 n o)) (fun n o => (V c main_v73 : S8192x1024.Idx → EReal) (ix2 n o))
          (fun o f => (V c main_v76 : S1024x64.Idx → EReal) (ix2 o f)) (fun o f => (V c main_v79 : S1024x64.Idx → EReal) (ix2 o f)) (fun o f => (V c main_v82 : S1024x64.Idx → EReal) (ix2 o f))
          (fun f => (V c main_v84 : S1x64.Idx → EReal) (ix2 0 f)) (fun f => (V c main_v85 : S1x64.Idx → EReal) (ix2 0 f)) (fun f => (V c main_v86 : S1x64.Idx → EReal) (ix2 0 f)) (fun f => (V c main_v87 : S1x64.Idx → EReal) (ix2 0 f)) (fun f => (V c main_v88 : S1x64.Idx → EReal) (ix2 0 f))
          (fun f q => (V c main_v83 : S64x2.Idx → EReal) (ix2 f q)) (fun q => (V c main_v89 : S1x2.Idx → EReal) (ix2 0 q)) (i 0) (i 1)

-- What point t stores at (p, q) is the last layer at row 1024 · t + p, column q.
theorem stored_at (t : Fin cfg3.N) (p : Fin 1024) (q : Fin 2) :
    (stored3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) : S1024x2.Idx → EReal) (ix2 p q) = G3 V c (ix2 (rowOf t p) q) := by
  obtain ⟨e3, e4, e5, e6, e7, e8, e9, e10, e11, e12⟩ := blkz3 V c t
  rw [e3, e4, e5, e6, e7, e8, e9, e10, e11, e12]
  unfold stored3
  simp only [View.ld_unit_zero (S := S1024x1024) hz3, View.ld_unit_zero (S := S1024x64) hz3, View.ld_unit_zero (S := S1x64) hz3, View.ld_unit_zero (S := S64x2) hz3, View.ld_unit_zero (S := S1x2) hz3]
  refine (pay1_at _ _ _ _ _ _ p q).trans ?_
  show _ = Cert.Spec.T3 _ _ _ _ _ _ _ _ _ _ _ _ _ (rowOf t p) q
  unfold Cert.Spec.T3 Cert.Spec.bnK
  refine congrArg₂ (· + ·) (Finset.sum_congr rfl fun f _ => ?_) rfl
  rw [pay2_at, pay3_at]
  simp only [read0, read1, read2]

theorem flushed13_eq (t : Fin cfg3.N) :
    (dat3 V c).flushed 13 t = ((cfg3.win 13).blk t).view.read (Elt Ideal) (G3 V c) := by
  show (cfg3.win 13).cut (grid3.coords t) ((dat3 V c).after 13 t) = _
  dsimp only [dat3]
  unfold out3_13
  rw [View.canon_unit_zero hz3]
  funext j
  obtain ⟨p, q, rfl⟩ : ∃ (p : Fin 1024) (q : Fin 2), j = ix2 p q := ⟨j 0, j 1, eq_ix2 j⟩
  show _ = G3 V c (((cfg3.win 13).blk t).view.emb (ix2 p q))
  rw [emb13]
  exact stored_at V c t p q

-- Row r of the result lies in the block of point r / 1024.
theorem cover13 (i : S8192x2.Idx) : ∃ t : Fin cfg3.N, (cfg3.win 13).flush t = true ∧ i ∈ ((cfg3.win 13).blk t).view.set := by
  have hi0 : (i 0).val < 8192 := idx2_lt0 i
  have hi1 : (i 1).val < 2 := idx2_lt1 i
  obtain ⟨t, ht⟩ : ∃ t : Fin cfg3.N, t.val = (i 0).val / 1024 :=
    ⟨⟨(i 0).val / 1024, by show _ < grid3.N; rw [N_3]; omega⟩, rfl⟩
  have h0 : win3_13.index t (0 : Fin 2) = t.val := idx3 t 13 0
  have h1 : win3_13.index t (1 : Fin 2) = 0 := idx3 t 13 1
  refine ⟨t, flush3_13 t, ?_⟩
  show i ∈ ((View.whole main_v90).slice (win3_13.rect t)).set
  rw [View.set_slice_whole, Rect.mem_set_unit]
  intro a
  match a with
  | ⟨0, _⟩ => show win3_13.index t (0 : Fin 2) * 1024 ≤ (i 0).val ∧ (i 0).val < win3_13.index t (0 : Fin 2) * 1024 + 1024; omega
  | ⟨1, _⟩ => show win3_13.index t (1 : Fin 2) * 2 ≤ (i 1).val ∧ (i 1).val < win3_13.index t (1 : Fin 2) * 2 + 2; omega

theorem final13 : (dat3 V c).arrAt 13 cfg3.N = G3 V c :=
  (dat3 V c).arrAt_eq_of_cover 13 (G3 V c) (fun t _ => flushed13_eq V c t) (cover13)

end Value

theorem out3_value (V : (c : Dev nD) → (b : Ref sig .tc) → Buf (Elt Ideal) ((c : Thread nD τ).loc b)) (c : Dev nD) (n : Fin 8192) (q : Fin 2) :
    ((dat3 V c).arrAt 13 cfg3.N : S8192x2.Idx → EReal) (ix2 n q)
      = Cert.Spec.T3 (fun n o => (V c main_v25 : S8192x1024.Idx → EReal) (ix2 n o)) (fun n o => (V c main_v72 : S8192x1024.Idx → EReal) (ix2 n o)) (fun n o => (V c main_v73 : S8192x1024.Idx → EReal) (ix2 n o))
          (fun o f => (V c main_v76 : S1024x64.Idx → EReal) (ix2 o f)) (fun o f => (V c main_v79 : S1024x64.Idx → EReal) (ix2 o f)) (fun o f => (V c main_v82 : S1024x64.Idx → EReal) (ix2 o f))
          (fun f => (V c main_v84 : S1x64.Idx → EReal) (ix2 0 f)) (fun f => (V c main_v85 : S1x64.Idx → EReal) (ix2 0 f)) (fun f => (V c main_v86 : S1x64.Idx → EReal) (ix2 0 f)) (fun f => (V c main_v87 : S1x64.Idx → EReal) (ix2 0 f)) (fun f => (V c main_v88 : S1x64.Idx → EReal) (ix2 0 f))
          (fun f q => (V c main_v83 : S64x2.Idx → EReal) (ix2 f q)) (fun q => (V c main_v89 : S1x2.Idx → EReal) (ix2 0 q)) n q :=
  congrFun (final13 V c) (ix2 n q)

end Cert.KernelIdeal.Hand

end
-- ==== Proof.LibScatterSum.lean ====
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

section General
variable {s si u : Shape} (d : ScatterDims s si u) {w : Nat} (idx : IVec si w)

-- An update lands on i exactly when start plus window coordinate is i's coordinate on every axis: i is inside the operand.
theorem resultIdx?_eq_some_iff (j : u.Idx) (i : s.Idx) :
    d.resultIdx? j idx = some i ↔ ∀ a, d.start j idx a + d.window j a = (i a).val := by
  unfold ScatterDims.resultIdx?
  split
  · rename_i h
    rw [Option.some.injEq, funext_iff]
    exact forall_congr' fun a => by rw [Fin.ext_iff]; dsimp only; have := h a; omega
  · rename_i h
    exact ⟨fun hf => absurd hf (by simp), fun hi => absurd (fun a => by have := hi a; have := (i a).isLt; omega) h⟩

theorem start_eq (j : u.Idx) (a : Fin s.rank) (k : si.Idx) (ha : a ∈ d.scatterDimsToOperandDims)
    (hk : d.siIdx j ⟨d.scatterDimsToOperandDims.idxOf a, List.idxOf_lt_length_iff.2 ha⟩ = k) :
    d.start j idx a = (idx k).toInt := by
  unfold ScatterDims.start
  rw [dif_pos ha, hk]

-- The updates landing on i are the g e with P e: the sum over them is re-indexed by e.
theorem hostScatterAdd_apply_of {n : Nat} (x : s.Idx → EReal) (upd : u.Idx → EReal) (i : s.Idx) (g : Fin n → u.Idx)
    (f : u.Idx → Fin n) (P : Fin n → Prop) [DecidablePred P] (hfg : ∀ e, f (g e) = e)
    (h : ∀ j, d.resultIdx? j idx = some i ↔ P (f j) ∧ g (f j) = j) :
    Ideal.hostScatterAdd d x idx upd i = x i + ∑ e ∈ Finset.univ.filter P, upd (g e) := by
  have h' := fun j (hj : j ∈ Finset.univ.filter fun j => d.resultIdx? j idx = some i) =>
    (h j).mp (Finset.mem_filter.mp hj).2
  exact congrArg (x i + ·) (Finset.sum_nbij' f g
    (fun j hj => Finset.mem_filter.mpr ⟨Finset.mem_univ _, (h' j hj).1⟩)
    (fun e he => Finset.mem_filter.mpr ⟨Finset.mem_univ _,
      (h _).mpr (by rw [hfg]; exact ⟨(Finset.mem_filter.mp he).2, rfl⟩)⟩)
    (fun j hj => (h' j hj).2) (fun e _ => hfg e) (fun j hj => congrArg upd (h' j hj).2.symm))
end General

abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

-- Update (e, q') lands on row idx[e, 0] (signed, not clamped) and column q'.
theorem rowHostScatterAdd_apply {N C n w : Nat} (wf : ScatterDims.WF ⟨2, ![N, C]⟩ ⟨2, ![n, 1]⟩ ⟨2, ![n, C]⟩ [1] [0] [0] 1)
    {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  hostScatterAdd_apply_of _ idx x upd _ (fun e => ix2 e q) (fun u => u 0) _ (fun _ => rfl) fun u => by
    obtain ⟨a, b, rfl⟩ : ∃ a b, u = ix2 a b := ⟨_, _, eq_ix2 u⟩
    rw [resultIdx?_eq_some_iff, Fin.forall_fin_two, start_eq _ idx (ix2 a b) 0 (ix2 a (0 : Fin 1)) (List.mem_singleton.mpr rfl)
      (funext fun c => Fin.ext (by match c with | ⟨0, _⟩ => rfl | ⟨1, _⟩ => rfl))]
    show (idx (ix2 a (0 : Fin 1))).toInt + ((0 : ℕ) : ℤ) = (j.val : ℤ) ∧ (0 : ℤ) + (b.val : ℤ) = (q.val : ℤ)
      ↔ (idx (ix2 a (0 : Fin 1))).toInt = (j.val : ℤ) ∧ ix2 a q = ix2 a b
    exact ⟨fun ⟨h, hb⟩ => ⟨by omega, by rw [Fin.ext (by omega : q.val = b.val)]⟩,
      fun ⟨h, hq⟩ => ⟨by omega, by rw [show q = b from congrFun hq 1]; omega⟩⟩

abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

-- Update e lands on idx[e, 0] (signed, not clamped).
theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  hostScatterAdd_apply_of _ idx x upd _ ix1 (fun u => u 0) _ (fun _ => rfl) fun u => by
    obtain ⟨a, rfl⟩ : ∃ a, u = ix1 a := ⟨_, eq_ix1 u⟩
    rw [resultIdx?_eq_some_iff, Fin.forall_fin_one, start_eq _ idx (ix1 a) 0 (ix2 a (0 : Fin 1)) (List.mem_singleton.mpr rfl)
      (funext fun c => Fin.ext (by match c with | ⟨0, _⟩ => rfl | ⟨1, _⟩ => rfl))]
    show (idx (ix2 a (0 : Fin 1))).toInt + ((0 : ℕ) : ℤ) = (j.val : ℤ) ↔ (idx (ix2 a (0 : Fin 1))).toInt = (j.val : ℤ) ∧ ix1 a = ix1 a
    rw [Nat.cast_zero, add_zero, and_iff_left rfl]
end Vec

end Idealize.ShloMosaic.ScatterSum
end
-- ==== Proof.LibPairScatter.lean ====
import Idealize.ShloMosaic.PureOps.Ideal
import Idealize.ShloMosaic.Lib.ValueIdx
import proofs.«410350_j46755013984839_3_alg».proof.Proof.LibScatterSum

noncomputable section

namespace Idealize.ShloMosaic.PairScatter

open Idealize.ShloMosaic Idealize.ShloMosaic.ValueIdx
open scoped BigOperators

variable {R N n : Nat} (d : ScatterDims ⟨2, ![R, N]⟩ ⟨2, ![n, 2]⟩ ⟨1, ![n]⟩)
  (h1 : d.updateWindowDims = []) (h2 : d.insertedWindowDims = [0, 1]) (h3 : d.scatterDimsToOperandDims = [0, 1])
  (h4 : d.indexVectorDim = 1)
include h1 h2 h3 h4

-- Both operand axes are scattered and there is no window axis: on axis a the landing coordinate is index word (e, a), read signed.
theorem resultIdx?_pair {w : Nat} (e : Fin n) (idx : IVec ⟨2, ![n, 2]⟩ w) (r : Fin R) (b : Fin N) :
    d.resultIdx? (ix1 e) idx = some (ix2 r b) ↔
      (idx (ix2 e (0 : Fin 2))).toInt = (r.val : Int) ∧ (idx (ix2 e (1 : Fin 2))).toInt = (b.val : Int) := by
  obtain ⟨uw, iw, sd, iv, wf⟩ := d
  simp only at h1 h2 h3 h4
  subst h1 h2 h3 h4
  have hs : ∀ a : Fin 2, ScatterDims.start (s := ⟨2, ![R, N]⟩) (si := ⟨2, ![n, 2]⟩) (u := ⟨1, ![n]⟩)
      ⟨[], [0, 1], [0, 1], 1, wf⟩ (ix1 e) idx a + (ScatterDims.window (s := ⟨2, ![R, N]⟩) (si := ⟨2, ![n, 2]⟩) (u := ⟨1, ![n]⟩)
      ⟨[], [0, 1], [0, 1], 1, wf⟩ (ix1 e) a : Int) = (idx (ix2 e a)).toInt := by
    intro a
    unfold ScatterDims.start ScatterDims.window
    rw [dif_pos (show a ∈ ([0, 1] : List (Fin 2)) by fin_cases a <;> decide), dif_neg, Nat.cast_zero, add_zero]
    · congr 2
      funext c
      fin_cases a <;> fin_cases c <;> rfl
    · show a ∉ (List.finRange 2).filter (· ∉ ([0, 1] : List (Fin 2)))
      fin_cases a <;> decide
  rw [ScatterSum.resultIdx?_eq_some_iff, Fin.forall_fin_two, hs, hs]

-- The update indices are the ix1 e: re-index the sum over those that land on (r, b) by e.
theorem scatterAdd_pair_apply {φ : FTy} {w : Nat} (x : FVec Ideal ⟨2, ![R, N]⟩ φ) (idx : IVec ⟨2, ![n, 2]⟩ w)
    (upd : FVec Ideal ⟨1, ![n]⟩ φ) (r : Fin R) (b : Fin N) :
    Host.scatterAdd d x idx upd (ix2 r b)
      = x (ix2 r b) + ∑ e ∈ Finset.univ.filter (fun e : Fin n =>
          (idx (ix2 e (0 : Fin 2))).toInt = (r.val : Int) ∧ (idx (ix2 e (1 : Fin 2))).toInt = (b.val : Int)),
          upd (ix1 e) := by
  show x (ix2 r b) + ∑ u ∈ Finset.univ.filter (fun u => d.resultIdx? u idx = some (ix2 r b)), upd u = _
  rw [Finset.sum_filter, Finset.sum_filter]
  refine congrArg (x (ix2 r b) + ·) (Fintype.sum_equiv ⟨fun u => u 0, ix1, fun u => (eq_ix1 u).symm, fun _ => rfl⟩ _ _ fun u => ?_)
  obtain ⟨a, rfl⟩ : ∃ a : Fin n, u = ix1 a := ⟨u 0, eq_ix1 u⟩
  exact if_congr (resultIdx?_pair d h1 h2 h3 h4 a idx r b) rfl rfl

end Idealize.ShloMosaic.PairScatter

end
-- ==== Proof.LibRowGather.lean ====
import Idealize.ShloMosaic.PureOps.Ideal
import Idealize.ShloMosaic.Lib.ValueIdx
import Idealize.ShloMosaic.Lib.WordArith
noncomputable section
namespace Idealize.ShloMosaic.RowGather
open Idealize.ShloMosaic Idealize.ShloMosaic.ValueIdx

-- A negative word plus a nonnegative one does not overflow, so the select reads, signed, v + s where v is negative, else v.
theorem toInt_wrap_word (s : BitVec 32) (hs : 0 ≤ s.toInt) (v : BitVec 32) :
    (Scalar.select (IntOp.cmpi .slt v 0#32) (IntOp.addi v s) v).toInt
      = if v.toInt < 0 then v.toInt + s.toInt else v.toInt := by
  have h1 := BitVec.toInt_lt (x := s)
  have h2 := BitVec.le_toInt (x := v)
  have hc : IntOp.cmpi .slt v 0#32 = 1#1 ↔ v.toInt < 0 := by
    show BitVec.ofBool (v.slt 0#32) = 1#1 ↔ _
    rw [WordArith.ofBool_eq_one_iff, BitVec.slt_iff_toInt_lt]
    simp
  by_cases h : v.toInt < 0
  · rw [if_pos h, hc.2 h, select_one]
    exact WordArith.toInt_add_of_bounds v s (by omega) (by omega)
  · rw [if_neg h, eq_zero_of_ne_one (mt hc.1 h), select_zero]

theorem select_gt (d a b : EReal) : Scalar.select (Ideal.cmp .ogt d 0) a b = if 0 < d then a else b := by
  unfold Scalar.select Ideal.cmp
  by_cases h : 0 < d <;> simp [h]

-- On a start-indexed axis the slice starts at the start index's component, read at k, signed and clamped.
theorem start_eq {s si t : Shape} (d : GatherDims s si t) {w : Nat} (idx : IVec si w) (j : t.Idx) (a : Fin s.rank)
    (k : si.Idx) (ha : a ∈ d.startIndexMap)
    (hk : d.siIdx j ⟨d.startIndexMap.idxOf a, List.idxOf_lt_length_iff.2 ha⟩ = k) :
    d.start j idx a = min (idx k).toInt.toNat (s.size a - d.sliceSizes a) := by
  unfold GatherDims.start
  rw [dif_pos ha, hk]

abbrev vecGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

-- The operand's one axis is collapsed and start-indexed: the operand coordinate is the clamped start alone.
theorem vecGather_apply {α : Type} {N n w : Nat}
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w)
    (p : Fin n) (q : Fin N) (hq : q.val = min (idx (ix2 p (0 : Fin 1))).toInt.toNat (N - 1)) :
    Host.gather (vecGatherDims N n wf) x idx (ix1 p) = x (ix1 q) := by
  unfold Host.gather
  refine congrArg x (funext fun a => Fin.ext ?_)
  match a with
  | ⟨0, _⟩ =>
    exact (start_eq (vecGatherDims N n wf) idx (ix1 p) 0 (ix2 p (0 : Fin 1)) (List.mem_singleton.mpr rfl)
      (funext fun b => Fin.ext (by match b with | ⟨0, _⟩ => rfl | ⟨1, _⟩ => rfl))).trans hq.symm

abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

-- Axis 0 is collapsed and start-indexed (the clamped start alone), axis 1 is the one offset axis (coordinate q).
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  unfold Host.gather
  refine congrArg x (funext fun a => Fin.ext ?_)
  match a with
  | ⟨0, _⟩ =>
    exact start_eq (rowDims N C n wf) idx (ix2 p q) 0 (ix2 p (0 : Fin 1)) (List.mem_singleton.mpr rfl)
      (funext fun b => Fin.ext (by match b with | ⟨0, _⟩ => rfl | ⟨1, _⟩ => rfl))
  | ⟨1, _⟩ => exact Nat.zero_add _
end Idealize.ShloMosaic.RowGather
end
-- ==== Proof.KI.HostValue0.lean ====
import proofs.«410350_j46755013984839_3_alg».proof.Proof.Gen.KernelIdeal.Launch
import proofs.«410350_j46755013984839_3_alg».proof.Proof.Spec
import proofs.«410350_j46755013984839_3_alg».proof.Proof.LibPairScatter
import proofs.«410350_j46755013984839_3_alg».proof.Proof.LibRowGather
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostValue

open Cert.KernelIdeal Cert.KernelIdeal.Gen
open Idealize.ShloMosaic Idealize.ShloMosaic.TcCoe Idealize.ShloMosaic.StableHlo
open Idealize.SL.Sem
open Idealize.ShloMosaic.ValueIdx
open scoped BigOperators

section Pairs

variable {n : ℕ} (hb : (⟨0, ![]⟩ : Shape).BroadcastsInDim ⟨1, ![n]⟩ ![]) (hc : (⟨1, ![n]⟩ : Shape).BroadcastsInDim ⟨2, ![n, 1]⟩ ![0])
  (hj : Shape.Concatenates [⟨2, ![n, 1]⟩, ⟨2, ![n, 1]⟩] ⟨2, ![n, 2]⟩ 1)

def wrapCol (s : BitVec 32) (c : IVec ⟨1, ![n]⟩ 32) : IVec ⟨1, ![n]⟩ 32 :=
  select (cmpi .slt c (broadcastInDim _ ![] hb (constantI S_ 32 0#32))) (addi c (broadcastInDim _ ![] hb (constantI S_ 32 s))) c

theorem wrapCol_apply (s : BitVec 32) (hs : 0 ≤ s.toInt) (c : IVec ⟨1, ![n]⟩ 32) (j : (⟨1, ![n]⟩ : Shape).Idx) :
    (wrapCol hb s c j).toInt = Cert.Spec.wrap s.toInt (c j).toInt := by
  show (Scalar.select (IntOp.cmpi .slt (c j) (broadcastInDim _ ![] hb (constantI S_ 32 0#32) j))
      (IntOp.addi (c j) (broadcastInDim _ ![] hb (constantI S_ 32 s) j)) (c j)).toInt = _
  rw [broadcastInDim_scalar_apply, broadcastInDim_scalar_apply]
  exact RowGather.toInt_wrap_word s hs (c j)

def wrapPairs (s₀ s₁ : BitVec 32) (c₀ c₁ : IVec ⟨1, ![n]⟩ 32) : IVec ⟨2, ![n, 2]⟩ 32 :=
  concatenate ⟨2, ![n, 2]⟩ 1 [⟨⟨2, ![n, 1]⟩, broadcastInDim _ ![0] hc (wrapCol hb s₀ c₀)⟩,
    ⟨⟨2, ![n, 1]⟩, broadcastInDim _ ![0] hc (wrapCol hb s₁ c₁)⟩] hj

theorem column_apply {α : Type} (y : (⟨1, ![n]⟩ : Shape).Idx → α) (e : Fin n) :
    broadcastInDim ⟨2, ![n, 1]⟩ ![0] hc y (ix2 e (0 : Fin 1)) = y (ix1 e) :=
  broadcastInDim_apply _ hc y _ (ix1 e) fun a => match a with
    | ⟨0, _⟩ => by
      have := e.isLt
      show e.val = if n = 1 then 0 else e.val
      split <;> omega

-- Column k of the joined array is vector k set up as a column, and each vector is wrapped entry by entry.
theorem wrapPairs_apply (s₀ s₁ : BitVec 32) (h₀ : 0 ≤ s₀.toInt) (h₁ : 0 ≤ s₁.toInt) (c₀ c₁ : IVec ⟨1, ![n]⟩ 32) (e : Fin n) :
    (wrapPairs hb hc hj s₀ s₁ c₀ c₁ (ix2 e 0)).toInt = Cert.Spec.wrap s₀.toInt (c₀ (ix1 e)).toInt ∧
      (wrapPairs hb hc hj s₀ s₁ c₀ c₁ (ix2 e 1)).toInt = Cert.Spec.wrap s₁.toInt (c₁ (ix1 e)).toInt := by
  rw [← wrapCol_apply hb s₀ h₀, ← wrapCol_apply hb s₁ h₁, ← column_apply hc (wrapCol hb s₀ c₀), ← column_apply hc (wrapCol hb s₁ c₁)]
  unfold wrapPairs
  refine ⟨congrArg BitVec.toInt ?_, congrArg BitVec.toInt ?_⟩
  · exact concatenate_pair_apply_left (s₁ := ⟨2, ![n, 1]⟩) (1 : Fin 2) _ _ hj (ix2 e (0 : Fin 2)) rfl (ix2 e (0 : Fin 1)) fun b => match b with
      | ⟨0, _⟩ => rfl
      | ⟨1, _⟩ => rfl
  · exact concatenate_pair_apply_right (s₁ := ⟨2, ![n, 1]⟩) (s₂ := ⟨2, ![n, 1]⟩) (1 : Fin 2) _ _ hj (ix2 e (1 : Fin 2)) rfl rfl (ix2 e (0 : Fin 1)) (fun b hb => match b, hb with
      | ⟨0, _⟩, _ => rfl
      | ⟨1, _⟩, hb => absurd rfl hb) rfl

-- Accumulating into zeros at the wrapped pairs: the updates whose wrapped pair is (r, b), summed.
theorem scatterWrapPairs_apply {R N : ℕ} (d : ScatterDims ⟨2, ![R, N]⟩ ⟨2, ![n, 2]⟩ ⟨1, ![n]⟩)
    (h1 : d.updateWindowDims = []) (h2 : d.insertedWindowDims = [0, 1]) (h3 : d.scatterDimsToOperandDims = [0, 1])
    (h4 : d.indexVectorDim = 1) (hz : (⟨0, ![]⟩ : Shape).BroadcastsInDim ⟨2, ![R, N]⟩ ![]) (s₀ s₁ : BitVec 32)
    (h₀ : 0 ≤ s₀.toInt) (h₁ : 0 ≤ s₁.toInt) (c₀ c₁ : IVec ⟨1, ![n]⟩ 32) (upd : FVec Ideal ⟨1, ![n]⟩ .f32) (r : Fin R) (b : Fin N) :
    Host.scatterAdd (F := Ideal) d (broadcastInDim _ ![] hz (constant (F := Ideal) S_ .f32 0x00000000#32))
        (wrapPairs hb hc hj s₀ s₁ c₀ c₁) upd (ix2 r b)
      = 0 + ∑ e ∈ Finset.univ.filter (fun e : Fin n => Cert.Spec.wrap s₀.toInt (c₀ (ix1 e)).toInt = (r.val : ℤ)
          ∧ Cert.Spec.wrap s₁.toInt (c₁ (ix1 e)).toInt = (b.val : ℤ)), upd (ix1 e) := by
  refine (PairScatter.scatterAdd_pair_apply d h1 h2 h3 h4 _ _ upd r b).trans
    (congrArg₂ (· + ·) ?_ (Finset.sum_congr (Finset.filter_congr fun e _ => ?_) fun _ _ => rfl))
  · rw [broadcastInDim_scalar_apply]
    exact Ideal.ofBits_zero_f32
  · have h := wrapPairs_apply hb hc hj s₀ s₁ h₀ h₁ c₀ c₁ e
    rw [h.1, h.2]

end Pairs

theorem col_apply (x3 : S16384x2.Idx → BitVec 32) (k : ℕ) (hk : k < 2) (h : S16384x2.Slices ![0, k] S16384x1) (e : Fin 16384) :
    shapeCast S16384 (extractStridedSlice S16384x1 ![0, k] x3 h) shapeCasts_S16384x1_S16384 (ix1 e) = x3 (ix2 e ⟨k, hk⟩) := by
  refine (shapeCast_apply _ shapeCasts_S16384x1_S16384 (ix1 e) (ix2 e (0 : Fin 1)) ?_).trans
    (slice2_axis1_apply k x3 h e 0 ⟨k, hk⟩ rfl)
  rw [Shape.rowMajor_val_two, Shape.rowMajor_val_one]
  show e.val * 1 + 0 = e.val
  omega

def wdTerm (x3 : S16384x2.Idx → BitVec 32) (x4 : S16384.Idx → EReal) : S2048x1024.Idx → EReal :=
  truncf (F := Ideal) .bf16 (Host.scatterAdd (F := Ideal) (φ := .f32) scatter_S2048x1024_S16384x2_S16384_n_01_01_1
    (broadcastInDim S2048x1024 ![] bcast_S_S2048x1024 (constant (F := Ideal) S_ .f32 0x00000000#32))
    (wrapPairs bcast_S_S16384 bcast_S16384_S16384x1_0 concatenates_S16384x1_S16384x1_S16384x2_d1 2048#32 1024#32
      (shapeCast S16384 (extractStridedSlice S16384x1 ![0, 0] x3 slices_S16384x2_S16384x1_0_0) shapeCasts_S16384x1_S16384)
      (shapeCast S16384 (extractStridedSlice S16384x1 ![0, 1] x3 slices_S16384x2_S16384x1_0_1) shapeCasts_S16384x1_S16384)) x4)
    bitsLt_bf16_f32

theorem wdTerm_apply (x3 : S16384x2.Idx → BitVec 32) (x4 : S16384.Idx → EReal) (i : Fin 2048) (o : Fin 1024) :
    wdTerm x3 x4 (ix2 i o) = Cert.Spec.WdK (fun c k => (x3 (ix2 c k)).toInt) (fun c => x4 (ix1 c)) i o := by
  unfold wdTerm Cert.Spec.WdK
  refine (scatterWrapPairs_apply bcast_S_S16384 bcast_S16384_S16384x1_0 concatenates_S16384x1_S16384x1_S16384x2_d1
    scatter_S2048x1024_S16384x2_S16384_n_01_01_1 rfl rfl rfl rfl bcast_S_S2048x1024 2048#32 1024#32 (by decide) (by decide) _ _ x4 i o).trans ?_
  have h2048 : (2048#32 : BitVec 32).toInt = 2048 := by decide
  have h1024 : (1024#32 : BitVec 32).toInt = 1024 := by decide
  refine congrArg (fun s : EReal => 0 + s) (Finset.sum_congr (Finset.filter_congr fun e _ => ?_) fun _ _ => rfl)
  rw [col_apply x3 0 (by decide), col_apply x3 1 (by decide), h2048, h1024]
  rfl

section After

variable (Y : Valuation τ sig (Elt Ideal))

theorem wd_value (i : Fin 2048) (o : Fin 1024) :
    (StableHlo.after (hostOps0 (F := Ideal)) Y (Proc.devRef .tc main_v19) : S2048x1024.Idx → EReal) (ix2 i o)
      = Cert.Spec.WdK (fun c k => ((Y (Proc.devRef .tc main_arg3) : S16384x2.Idx → BitVec 32) (ix2 c k)).toInt)
          (fun c => (Y (Proc.devRef .tc main_arg4) : S16384.Idx → EReal) (ix1 c)) i o := by
  refine (congrFun (?_ : _ = wdTerm (Y (Proc.devRef .tc main_arg3)) (Y (Proc.devRef .tc main_arg4))) _).trans (wdTerm_apply _ _ i o)
  after_results_simp
  rfl

-- A vector reshaped to one row, read along the row, is the vector.
theorem row_of_vec {n : ℕ} {v : (⟨2, ![1, n]⟩ : Shape).Idx → EReal} {x : (⟨1, ![n]⟩ : Shape).Idx → EReal}
    (h : (⟨1, ![n]⟩ : Shape).ShapeCasts ⟨2, ![1, n]⟩) (e : v = shapeCast _ x h) (o : Fin n) : v (ix2 0 o) = x (ix1 o) :=
  e ▸ shapeCast_a_1a_apply x h 0 o

theorem v20_row (o : Fin 1024) :
    (StableHlo.after (hostOps0 (F := Ideal)) Y (Proc.devRef .tc main_v20) : S1x1024.Idx → EReal) (ix2 0 o)
      = (Y (Proc.devRef .tc main_arg5) : S1024.Idx → EReal) (ix1 o) :=
  row_of_vec shapeCasts_S1024_S1x1024 (by after_results; rfl) o

theorem v21_row (o : Fin 1024) :
    (StableHlo.after (hostOps0 (F := Ideal)) Y (Proc.devRef .tc main_v21) : S1x1024.Idx → EReal) (ix2 0 o)
      = (Y (Proc.devRef .tc main_arg10) : S1024.Idx → EReal) (ix1 o) :=
  row_of_vec shapeCasts_S1024_S1x1024 (by after_results; rfl) o

theorem v22_row (o : Fin 1024) :
    (StableHlo.after (hostOps0 (F := Ideal)) Y (Proc.devRef .tc main_v22) : S1x1024.Idx → EReal) (ix2 0 o)
      = (Y (Proc.devRef .tc main_arg11) : S1024.Idx → EReal) (ix1 o) :=
  row_of_vec shapeCasts_S1024_S1x1024 (by after_results; rfl) o

theorem v23_row (o : Fin 1024) :
    (StableHlo.after (hostOps0 (F := Ideal)) Y (Proc.devRef .tc main_v23) : S1x1024.Idx → EReal) (ix2 0 o)
      = (Y (Proc.devRef .tc main_arg12) : S1024.Idx → EReal) (ix1 o) :=
  row_of_vec shapeCasts_S1024_S1x1024 (by after_results; rfl) o

theorem v24_row (o : Fin 1024) :
    (StableHlo.after (hostOps0 (F := Ideal)) Y (Proc.devRef .tc main_v24) : S1x1024.Idx → EReal) (ix2 0 o)
      = (Y (Proc.devRef .tc main_arg13) : S1024.Idx → EReal) (ix1 o) :=
  row_of_vec shapeCasts_S1024_S1x1024 (by after_results; rfl) o

-- Layer a of the filter, sliced out and reshaped to a matrix; the change of float format is the identity on extended reals.
theorem layer_apply {v : S1024x64.Idx → EReal} {x : S3x1024x64.Idx → EReal} (a : Fin 3) (h : S3x1024x64.Slices ![a.val, 0, 0] S1x1024x64)
    (e : v = truncf (F := Ideal) .bf16 (shapeCast S1024x64 (extractStridedSlice S1x1024x64 ![a.val, 0, 0] x h)
      shapeCasts_S1x1024x64_S1024x64 : FVec Ideal S1024x64 .f32) bitsLt_bf16_f32) (o : Fin 1024) (f : Fin 64) :
    v (ix2 o f) = x (ix3 a o f) := by
  subst e
  exact (shapeCast_1ab_ab_apply _ shapeCasts_S1x1024x64_S1024x64 o f).trans
    (extractStridedSlice_apply ![a.val, 0, 0] x h _ (ix3 a o f) fun b => match b with
      | ⟨0, _⟩ => rfl
      | ⟨1, _⟩ => (Nat.zero_add _).symm
      | ⟨2, _⟩ => (Nat.zero_add _).symm)

theorem v76_value (o : Fin 1024) (f : Fin 64) :
    (StableHlo.after (hostOps3 (F := Ideal)) Y (Proc.devRef .tc main_v76) : S1024x64.Idx → EReal) (ix2 o f)
      = (Y (Proc.devRef .tc main_arg6) : S3x1024x64.Idx → EReal) (ix3 0 o f) :=
  layer_apply 0 slices_S3x1024x64_S1x1024x64_0_0_0 (by after_results; rfl) o f

theorem v79_value (o : Fin 1024) (f : Fin 64) :
    (StableHlo.after (hostOps3 (F := Ideal)) Y (Proc.devRef .tc main_v79) : S1024x64.Idx → EReal) (ix2 o f)
      = (Y (Proc.devRef .tc main_arg6) : S3x1024x64.Idx → EReal) (ix3 1 o f) :=
  layer_apply 1 slices_S3x1024x64_S1x1024x64_1_0_0 (by after_results; rfl) o f

theorem v82_value (o : Fin 1024) (f : Fin 64) :
    (StableHlo.after (hostOps3 (F := Ideal)) Y (Proc.devRef .tc main_v82) : S1024x64.Idx → EReal) (ix2 o f)
      = (Y (Proc.devRef .tc main_arg6) : S3x1024x64.Idx → EReal) (ix3 2 o f) :=
  layer_apply 2 slices_S3x1024x64_S1x1024x64_2_0_0 (by after_results; rfl) o f

theorem v83_value (f : Fin 64) (q : Fin 2) :
    (StableHlo.after (hostOps3 (F := Ideal)) Y (Proc.devRef .tc main_v83) : S64x2.Idx → EReal) (ix2 f q)
      = (Y (Proc.devRef .tc main_arg8) : S2x64.Idx → EReal) (ix2 q f) := by
  refine (congrFun (?_ : _ = transpose S64x2 [1, 0] (Y (Proc.devRef .tc main_arg8) : S2x64.Idx → EReal) transposes_S2x64_S64x2_1_0) _).trans
    (transpose_ix2_apply _ _ f q)
  after_results

theorem v84_row (f : Fin 64) :
    (StableHlo.after (hostOps3 (F := Ideal)) Y (Proc.devRef .tc main_v84) : S1x64.Idx → EReal) (ix2 0 f)
      = (Y (Proc.devRef .tc main_arg7) : S64.Idx → EReal) (ix1 f) :=
  row_of_vec shapeCasts_S64_S1x64 (by after_results; rfl) f

theorem v85_row (f : Fin 64) :
    (StableHlo.after (hostOps3 (F := Ideal)) Y (Proc.devRef .tc main_v85) : S1x64.Idx → EReal) (ix2 0 f)
      = (Y (Proc.devRef .tc main_arg14) : S64.Idx → EReal) (ix1 f) :=
  row_of_vec shapeCasts_S64_S1x64 (by after_results; rfl) f

theorem v86_row (f : Fin 64) :
    (StableHlo.after (hostOps3 (F := Ideal)) Y (Proc.devRef .tc main_v86) : S1x64.Idx → EReal) (ix2 0 f)
      = (Y (Proc.devRef .tc main_arg15) : S64.Idx → EReal) (ix1 f) :=
  row_of_vec shapeCasts_S64_S1x64 (by after_results; rfl) f

theorem v87_row (f : Fin 64) :
    (StableHlo.after (hostOps3 (F := Ideal)) Y (Proc.devRef .tc main_v87) : S1x64.Idx → EReal) (ix2 0 f)
      = (Y (Proc.devRef .tc main_arg16) : S64.Idx → EReal) (ix1 f) :=
  row_of_vec shapeCasts_S64_S1x64 (by after_results; rfl) f

theorem v88_row (f : Fin 64) :
    (StableHlo.after (hostOps3 (F := Ideal)) Y (Proc.devRef .tc main_v88) : S1x64.Idx → EReal) (ix2 0 f)
      = (Y (Proc.devRef .tc main_arg17) : S64.Idx → EReal) (ix1 f) :=
  row_of_vec shapeCasts_S64_S1x64 (by after_results; rfl) f

theorem v89_row (q : Fin 2) :
    (StableHlo.after (hostOps3 (F := Ideal)) Y (Proc.devRef .tc main_v89) : S1x2.Idx → EReal) (ix2 0 q)
      = (Y (Proc.devRef .tc main_arg9) : S2.Idx → EReal) (ix1 q) :=
  row_of_vec shapeCasts_S2_S1x2 (by after_results; rfl) q

end After

end Cert.KernelIdeal.HostValue

end
-- ==== Proof.KI.HostValue1.lean ====
import proofs.«410350_j46755013984839_3_alg».proof.Proof.KI.HostValue0
import proofs.«410350_j46755013984839_3_alg».proof.Proof.LibScatterSum

noncomputable section

namespace Cert.KernelIdeal.HostValue

open Cert.KernelIdeal Cert.KernelIdeal.Gen
open Idealize.ShloMosaic Idealize.ShloMosaic.TcCoe Idealize.ShloMosaic.StableHlo Idealize.ShloMosaic.ValueIdx
open Idealize.SL.Sem
open scoped BigOperators

theorem op_slice_apply (k : Fin 2) (h : S2x262144.Slices ![k.val, 0] S1x262144) (x1 : IVec S2x262144 32) (e : Fin 262144) :
    shapeCast S262144 (extractStridedSlice S1x262144 ![k.val, 0] x1 h) Gen.shapeCasts_S1x262144_S262144 (ix1 e) = x1 (ix2 k e) :=
  (shapeCast_1a_a_apply _ Gen.shapeCasts_S1x262144_S262144 e).trans (slice2_axis0_apply k.val x1 h 0 e k rfl)

def op_rowT (x1 : IVec S2x262144 32) : IVec S262144 32 :=
  shapeCast S262144 (extractStridedSlice S1x262144 ![0, 0] x1 Gen.slices_S2x262144_S1x262144_0_0) Gen.shapeCasts_S1x262144_S262144
def op_colT (x1 : IVec S2x262144 32) : IVec S262144 32 :=
  shapeCast S262144 (extractStridedSlice S1x262144 ![1, 0] x1 Gen.slices_S2x262144_S1x262144_1_0) Gen.shapeCasts_S1x262144_S262144

theorem op_row_apply (x1 : IVec S2x262144 32) (e : Fin 262144) : op_rowT x1 (ix1 e) = x1 (ix2 (0 : Fin 2) e) :=
  op_slice_apply 0 _ x1 e
theorem op_col_apply (x1 : IVec S2x262144 32) (e : Fin 262144) : op_colT x1 (ix1 e) = x1 (ix2 (1 : Fin 2) e) :=
  op_slice_apply 1 _ x1 e

def op_zerosT : FVec Ideal S8192 .f32 :=
  broadcastInDim S8192 ![] Gen.bcast_S_S8192 (constant (F := Ideal) S_ .f32 0x00000000#32)
def op_epsT : FVec Ideal S8192 .f32 :=
  broadcastInDim S8192 ![] Gen.bcast_S_S8192 (constant (F := Ideal) S_ .f32 0x3727C5AC#32)
def op_degT (r : IVec S262144 32) (x2 : FVec Ideal S262144 .f32) : FVec Ideal S8192 .f32 :=
  Host.scatterAdd scatter_S8192_S262144x1_S262144_n_0_0_1 op_zerosT
    (broadcastInDim S262144x1 ![0] Gen.bcast_S262144_S262144x1_0 r) x2
abbrev op_wrapT : IVec S262144 32 → IVec S262144 32 := wrapCol Gen.bcast_S_S262144 8192#32
theorem toInt_8192 : (8192#32 : BitVec 32).toInt = 8192 := by decide
def op_takeT (dinv : FVec Ideal S8192 .f32) (r : IVec S262144 32) : FVec Ideal S262144 .f32 :=
  Host.gather gather_S8192_S262144x1_S262144_n_0_n_n_0_1_1 dinv
    (broadcastInDim S262144x1 ![0] Gen.bcast_S262144_S262144x1_0 (op_wrapT r))
def op_denseT (dinv : FVec Ideal S8192 .f32) (r c : IVec S262144 32) (x2 : FVec Ideal S262144 .f32) : FVec Ideal S8192x8192 .bf16 :=
  truncf .bf16
    (Host.scatterAdd scatter_S8192x8192_S262144x2_S262144_n_01_01_1
      (broadcastInDim S8192x8192 ![] Gen.bcast_S_S8192x8192 (constant (F := Ideal) S_ .f32 0x00000000#32))
      (wrapPairs Gen.bcast_S_S262144 Gen.bcast_S262144_S262144x1_0 Gen.concatenates_S262144x1_S262144x1_S262144x2_d1
        8192#32 8192#32 c r)
      (Host.negf (mulf (mulf (op_takeT dinv r) x2) (op_takeT dinv c))))
    Gen.bitsLt_bf16_f32

theorem op_zeros_apply (j : Fin 8192) : op_zerosT (ix1 j) = 0 := by
  unfold op_zerosT
  rw [broadcastInDim_scalar_apply, constant_apply, Ideal.ofBits_zero_f32]

theorem op_eps_apply (j : Fin 8192) : op_epsT (ix1 j) = Cert.Spec.eps := by
  unfold op_epsT
  rw [broadcastInDim_scalar_apply, constant_apply]
  rfl

theorem op_deg_apply (r : IVec S262144 32) (x2 : FVec Ideal S262144 .f32) (j : Fin 8192) :
    op_degT r x2 (ix1 j)
      = 0 + ∑ e ∈ Finset.univ.filter (fun e : Fin 262144 => (r (ix1 e)).toInt = (j.val : ℤ)), x2 (ix1 e) := by
  unfold op_degT
  refine (ScatterSum.vecHostScatterAdd_apply (N := 8192) (n := 262144)
    Gen.scatter_S8192_S262144x1_S262144_n_0_0_1_wf op_zerosT _ x2 j).trans ?_
  rw [op_zeros_apply]
  refine congrArg (fun s : EReal => 0 + s) ?_
  refine Finset.sum_congr (Finset.filter_congr fun e _ => ?_) (fun _ _ => rfl)
  rw [column_apply]

-- The gather clamps the wrapped word's signed value into 0 .. 8191: the endpoint's node.
theorem op_take_apply (dinv : FVec Ideal S8192 .f32) (r : IVec S262144 32) (e : Fin 262144) :
    op_takeT dinv r (ix1 e) = dinv (ix1 (Cert.Spec.node (r (ix1 e)).toInt)) := by
  unfold op_takeT
  refine RowGather.vecGather_apply Gen.gather_S8192_S262144x1_S262144_n_0_n_n_0_1_1_wf dinv _ e _ ?_
  show min (Cert.Spec.wrap 8192 (r (ix1 e)).toInt).toNat (8192 - 1)
    = min (broadcastInDim S262144x1 ![0] Gen.bcast_S262144_S262144x1_0 (op_wrapT r) (ix2 e (0 : Fin 1))).toInt.toNat (8192 - 1)
  rw [column_apply, wrapCol_apply _ _ (by decide), toInt_8192]

def op_dinvT (r : IVec S262144 32) (x2 : FVec Ideal S262144 .f32) : FVec Ideal S8192 .f32 :=
  select (cmpf .ogt (op_degT r x2) op_zerosT) (Host.rsqrt (maximumf (op_degT r x2) op_epsT)) op_zerosT

theorem op_rsqrt_apply {s : Shape} {φ : FTy} (a : FVec Ideal s φ) (i : s.Idx) : Host.rsqrt a i = Ideal.rsqrt (a i) := rfl

-- The program's inverse-square-root table is the specification's, over the edge array's signed words.
theorem op_dinv_spec (x1 : IVec S2x262144 32) (x2 : FVec Ideal S262144 .f32) (n : Fin 8192) :
    op_dinvT (op_rowT x1) x2 (ix1 n)
      = Cert.Spec.dinv (fun k e => (x1 (ix2 k e)).toInt) (fun e => x2 (ix1 e)) n := by
  unfold op_dinvT Cert.Spec.dinv Cert.Spec.deg
  rw [select_apply, cmpf_apply, op_rsqrt_apply, maximumf_apply, op_zeros_apply, op_eps_apply, Ideal.cmpf_def, RowGather.select_gt, op_deg_apply]
  simp only [op_row_apply]

section After
variable (V : Valuation τ sig (Elt Ideal))

theorem op_after1_v34 :
    (StableHlo.after (hostOps1 (F := Ideal)) V (Proc.devRef .tc main_v34) : S8192.Idx → BitVec 1)
      = cmpf .ogt (op_degT (op_rowT (V (Proc.devRef .tc main_arg1))) (V (Proc.devRef .tc main_arg2))) op_zerosT := by
  after_results; rfl

theorem op_after1_v37 :
    (StableHlo.after (hostOps1 (F := Ideal)) V (Proc.devRef .tc main_v37) : S8192.Idx → EReal)
      = Host.rsqrt (maximumf (op_degT (op_rowT (V (Proc.devRef .tc main_arg1))) (V (Proc.devRef .tc main_arg2))) op_epsT) := by
  after_results; rfl

theorem op_after1_cst6 :
    (StableHlo.after (hostOps1 (F := Ideal)) V (Proc.devRef .tc main_cst_6) : S_.Idx → EReal)
      = constant (F := Ideal) S_ .f32 0x00000000#32 := by
  after_results

theorem op_after2_v38 :
    (StableHlo.after (hostOps1_1 (F := Ideal)) V (Proc.devRef .tc main_v38) : S8192.Idx → EReal)
      = select (V (Proc.devRef .tc main_v34) : S8192.Idx → BitVec 1) (V (Proc.devRef .tc main_v37) : S8192.Idx → EReal)
          (broadcastInDim S8192 ![] Gen.bcast_S_S8192 (V (Proc.devRef .tc main_cst_6) : S_.Idx → EReal)) := by
  after_results; rfl

theorem op_after12_v27 :
    (StableHlo.after (hostOps1_1 (F := Ideal)) (StableHlo.after (hostOps1 (F := Ideal)) V) (Proc.devRef .tc main_v27) : S262144.Idx → BitVec 32)
      = op_rowT (V (Proc.devRef .tc main_arg1)) := by
  after_results; rfl

theorem op_after12_v29 :
    (StableHlo.after (hostOps1_1 (F := Ideal)) (StableHlo.after (hostOps1 (F := Ideal)) V) (Proc.devRef .tc main_v29) : S262144.Idx → BitVec 32)
      = op_colT (V (Proc.devRef .tc main_arg1)) := by
  after_results; rfl

theorem op_after12_arg2 :
    (StableHlo.after (hostOps1_1 (F := Ideal)) (StableHlo.after (hostOps1 (F := Ideal)) V) (Proc.devRef .tc main_arg2) : S262144.Idx → EReal)
      = V (Proc.devRef .tc main_arg2) := by
  after_results

theorem op_after3 :
    (StableHlo.after (hostOps1_2 (F := Ideal)) V (Proc.devRef .tc main_v71) : S8192x8192.Idx → EReal)
      = op_denseT (V (Proc.devRef .tc main_v38)) (V (Proc.devRef .tc main_v27)) (V (Proc.devRef .tc main_v29))
          (V (Proc.devRef .tc main_arg2)) := by
  after_results_simp
  rfl

end After

theorem op_value (Y : Valuation τ sig (Elt Ideal)) (j i : Fin 8192) :
    (StableHlo.after (hostOps1_2 (F := Ideal)) (StableHlo.after (hostOps1_1 (F := Ideal)) (StableHlo.after (hostOps1 (F := Ideal)) Y))
        (Proc.devRef .tc main_v71) : S8192x8192.Idx → EReal) (ix2 j i)
      = Cert.Spec.AK (fun k e => ((Y (Proc.devRef .tc main_arg1) : S2x262144.Idx → BitVec 32) (ix2 k e)).toInt)
          (fun e => (Y (Proc.devRef .tc main_arg2) : S262144.Idx → EReal) (ix1 e)) j i := by
  rw [op_after3, op_after12_v27, op_after12_v29, op_after12_arg2, op_after2_v38, op_after1_v34, op_after1_v37, op_after1_cst6]
  show op_denseT (op_dinvT (op_rowT _) _) _ _ _ (ix2 j i) = _
  unfold op_denseT Cert.Spec.AK Cert.Spec.AKg Cert.Spec.nw
  refine (scatterWrapPairs_apply Gen.bcast_S_S262144 Gen.bcast_S262144_S262144x1_0 Gen.concatenates_S262144x1_S262144x1_S262144x2_d1
    scatter_S8192x8192_S262144x2_S262144_n_01_01_1 rfl rfl rfl rfl Gen.bcast_S_S8192x8192 8192#32 8192#32 (by decide) (by decide)
    _ _ _ j i).trans ?_
  rw [toInt_8192]
  refine congrArg (fun s : EReal => 0 + s) (Finset.sum_congr (Finset.filter_congr fun e _ => ?_) fun e _ => ?_)
  · rw [op_col_apply, op_row_apply]
  · show -((op_takeT _ _ (ix1 e) * _) * op_takeT _ _ (ix1 e)) = _
    rw [op_take_apply, op_take_apply, op_row_apply, op_col_apply, op_dinv_spec, op_dinv_spec]

end Cert.KernelIdeal.HostValue

end
-- ==== Proof.KI.KValue.lean ====
import proofs.«410350_j46755013984839_3_alg».proof.Proof.KI.KValueCore
import proofs.«410350_j46755013984839_3_alg».proof.Proof.KI.Region0Value
import proofs.«410350_j46755013984839_3_alg».proof.Proof.KI.Region1Value
import proofs.«410350_j46755013984839_3_alg».proof.Proof.KI.Region2Value
import proofs.«410350_j46755013984839_3_alg».proof.Proof.KI.Region3Value
import proofs.«410350_j46755013984839_3_alg».proof.Proof.KI.HostValue0
import proofs.«410350_j46755013984839_3_alg».proof.Proof.KI.HostValue1

noncomputable section

namespace Cert.KernelIdeal.Hand

open Cert.KernelIdeal Cert.KernelIdeal.Gen
open Idealize.ShloMosaic Idealize.ShloMosaic.TcCoe
open Idealize.ShloMosaic.ValueIdx

variable (m : (ℓ : Loc nD τ sig) → Buf (Elt Ideal) ℓ) (c : Dev nD)

-- Region 0 leaves the first layer: it reads x as launched and what the first host stretch computed from the launch memory.
theorem o2_fun : (fun n o => (o2 m c : S8192x1024.Idx → EReal) (ix2 n o)) = at0 m c := by
  funext n o
  refine (out0_value (Y1 m) c n o).trans ?_
  rw [show Y1 m c main_arg0 = arg m c main_arg0 from X1_arg m c _ (by decide)]
  unfold Y1 tcOf X1
  rw [funext fun i => funext fun o => HostValue.wd_value (X0 m c) i o, funext (HostValue.v20_row (X0 m c)),
    funext (HostValue.v21_row (X0 m c)), funext (HostValue.v22_row (X0 m c)), funext (HostValue.v23_row (X0 m c)),
    funext (HostValue.v24_row (X0 m c))]
  rfl

-- The operator regions 1 and 2 read is the dense operator of the edge list as launched.
theorem A5_fun : (fun j i => (Y5 m c main_v71 : S8192x8192.Idx → EReal) (ix2 j i)) = aA m c := by
  funext j i
  refine (HostValue.op_value (X2 m c) j i).trans ?_
  rw [X2_arg m c main_arg1 (by decide), X2_arg m c main_arg2 (by decide)]

theorem o6_fun : (fun n f => (o6 m c : S8192x1024.Idx → EReal) (ix2 n f)) = Cert.Spec.P1 (aA m c) (at0 m c) := by
  funext n f
  refine (out1_value (Y5 m) c n f).trans ?_
  rw [Y5_v25 m c, o2_fun m c, A5_fun m c]

theorem o7_fun : (fun n f => (o7 m c : S8192x1024.Idx → EReal) (ix2 n f))
    = Cert.Spec.P2 (aA m c) (Cert.Spec.P1 (aA m c) (at0 m c)) (at0 m c) := by
  funext n f
  refine (out2_value (Y6 m) c n f).trans ?_
  rw [Y6_v71 m c, Y6_v72 m c, Y6_v25 m c, o2_fun m c, o6_fun m c, A5_fun m c]

-- The last region reads the three layers and thirteen small arrays the last host stretch cut out of arguments still as launched.
theorem result_value (m : (ℓ : Loc nD τ sig) → Buf (Elt Ideal) ℓ) (c : Dev nD) (n : Fin 8192) (q : Fin 2) :
    (X9 m c (Proc.devRef .tc main_v90) : S8192x2.Idx → EReal) (ix2 n q)
      = Cert.Spec.outK (ax m c) (aei m c) (aew m c) (asm m c) (aw m c) (ab m c) (acw m c) (acb m c) (alw m c) (alb m c)
          (agS m c) (abeS m c) (amuS m c) (avarS m c) (ag1 m c) (abe1 m c) (amu1 m c) (avar1 m c) n q := by
  refine (congrFun (X9_out m c) _).trans ((out3_value (Y8 m) c n q).trans ?_)
  rw [Y8_v25 m c, Y8_v72 m c, Y8_v73 m c, o2_fun m c, o6_fun m c, o7_fun m c]
  unfold Y8 tcOf X8
  rw [funext fun o => funext fun f => HostValue.v76_value (X7 m c) o f,
    funext fun o => funext fun f => HostValue.v79_value (X7 m c) o f,
    funext fun o => funext fun f => HostValue.v82_value (X7 m c) o f,
    funext fun f => funext fun q => HostValue.v83_value (X7 m c) f q,
    funext (HostValue.v84_row (X7 m c)), funext (HostValue.v85_row (X7 m c)), funext (HostValue.v86_row (X7 m c)),
    funext (HostValue.v87_row (X7 m c)), funext (HostValue.v88_row (X7 m c)), funext (HostValue.v89_row (X7 m c)),
    X7_arg m c main_arg6 (by decide), X7_arg m c main_arg7 (by decide), X7_arg m c main_arg8 (by decide),
    X7_arg m c main_arg9 (by decide), X7_arg m c main_arg14 (by decide), X7_arg m c main_arg15 (by decide),
    X7_arg m c main_arg16 (by decide), X7_arg m c main_arg17 (by decide)]
  rfl

end Cert.KernelIdeal.Hand

end
-- ==== Proof.LibColGatherScatter.lean ====
import proofs.«410350_j46755013984839_3_alg».proof.Proof.LibRowGather
import proofs.«410350_j46755013984839_3_alg».proof.Proof.LibScatterSum
noncomputable section
namespace Idealize.ShloMosaic.ColGatherScatter
open Idealize.ShloMosaic Idealize.ShloMosaic.ValueIdx
open scoped BigOperators

abbrev colDims (N C n : Nat)
    (wf : GatherDims.WF ⟨2, ![N, C]⟩ ⟨2, ![n, 1]⟩ ⟨2, ![N, n]⟩ [0] [1] [] [1] [] 1 ![N, 1]) :
    GatherDims ⟨2, ![N, C]⟩ ⟨2, ![n, 1]⟩ ⟨2, ![N, n]⟩ where
  offsetDims := [0]
  collapsedSliceDims := [1]
  operandBatchingDims := []
  startIndicesBatchingDims := []
  startIndexMap := [1]
  indexVectorDim := 1
  sliceSizes := ![N, 1]
  wf := wf

-- Axis 0 is the one offset axis (coordinate p), axis 1 is collapsed and start-indexed (the clamped start alone).
theorem colGather_apply {α : Type} {N C n w : Nat} (hC : 0 < C)
    (wf : GatherDims.WF ⟨2, ![N, C]⟩ ⟨2, ![n, 1]⟩ ⟨2, ![N, n]⟩ [0] [1] [] [1] [] 1 ![N, 1])
    (x : (⟨2, ![N, C]⟩ : Shape).Idx → α) (idx : IVec ⟨2, ![n, 1]⟩ w) (p : Fin N) (q : Fin n) :
    Host.gather (colDims N C n wf) x idx (ix2 p q)
      = x (ix2 p (⟨min (idx (ix2 q (0 : Fin 1))).toInt.toNat (C - 1), by omega⟩ : Fin C)) := by
  unfold Host.gather
  refine congrArg x (funext fun a => Fin.ext ?_)
  match a with
  | ⟨0, _⟩ => exact Nat.zero_add _
  | ⟨1, _⟩ =>
    exact RowGather.start_eq (colDims N C n wf) idx (ix2 p q) 1 (ix2 q (0 : Fin 1)) (List.mem_singleton.mpr rfl)
      (funext fun b => Fin.ext (by match b with | ⟨0, _⟩ => rfl | ⟨1, _⟩ => rfl))

abbrev colScatterDims (N C n : Nat)
    (wf : ScatterDims.WF ⟨2, ![N, C]⟩ ⟨2, ![n, 1]⟩ ⟨2, ![N, n]⟩ [0] [1] [1] 1) :
    ScatterDims ⟨2, ![N, C]⟩ ⟨2, ![n, 1]⟩ ⟨2, ![N, n]⟩ where
  updateWindowDims := [0]
  insertedWindowDims := [1]
  scatterDimsToOperandDims := [1]
  indexVectorDim := 1
  wf := wf

-- Update (p', e) lands on row p' and column idx[e, 0] (signed, not clamped).
theorem colHostScatterAdd_apply {N C n w : Nat} (wf : ScatterDims.WF ⟨2, ![N, C]⟩ ⟨2, ![n, 1]⟩ ⟨2, ![N, n]⟩ [0] [1] [1] 1)
    {φ : FTy} (x : FVec Ideal ⟨2, ![N, C]⟩ φ) (idx : IVec ⟨2, ![n, 1]⟩ w)
    (upd : FVec Ideal ⟨2, ![N, n]⟩ φ) (p : Fin N) (o : Fin C) :
    Host.scatterAdd (colScatterDims N C n wf) x idx upd (ix2 p o)
      = x (ix2 p o) + ∑ e ∈ Finset.univ.filter (fun e : Fin n => (idx (ix2 e (0 : Fin 1))).toInt = (o.val : ℤ)),
          upd (ix2 p e) :=
  ScatterSum.hostScatterAdd_apply_of _ idx x upd _ (fun e => ix2 p e) (fun u => u 1) _ (fun _ => rfl) fun u => by
    obtain ⟨a, b, rfl⟩ : ∃ a b, u = ix2 a b := ⟨_, _, eq_ix2 u⟩
    rw [ScatterSum.resultIdx?_eq_some_iff, Fin.forall_fin_two,
      ScatterSum.start_eq _ idx (ix2 a b) 1 (ix2 b (0 : Fin 1)) (List.mem_singleton.mpr rfl)
        (funext fun c => Fin.ext (by match c with | ⟨0, _⟩ => rfl | ⟨1, _⟩ => rfl))]
    show (0 : ℤ) + (a.val : ℤ) = (p.val : ℤ) ∧ (idx (ix2 b (0 : Fin 1))).toInt + ((0 : ℕ) : ℤ) = (o.val : ℤ)
      ↔ (idx (ix2 b (0 : Fin 1))).toInt = (o.val : ℤ) ∧ ix2 p b = ix2 a b
    exact ⟨fun ⟨ha, h⟩ => ⟨by omega, by rw [Fin.ext (by omega : p.val = a.val)]⟩,
      fun ⟨h, hp⟩ => ⟨by rw [show p = a from congrFun hp 0]; omega, by omega⟩⟩

end Idealize.ShloMosaic.ColGatherScatter
end
-- ==== Proof.Ref.Value0.lean ====
import proofs.«410350_j46755013984839_3_alg».proof.Proof.RefGen
import proofs.«410350_j46755013984839_3_alg».proof.Proof.Spec
import proofs.«410350_j46755013984839_3_alg».proof.Proof.LibColGatherScatter
import Idealize.ShloMosaic.Lib.WordArith
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.ColGatherScatter
open scoped BigOperators

theorem idx1_ext {n : Nat} {i j : (⟨1, ![n]⟩ : Shape).Idx} (h : (i 0).val = (j 0).val) : i = j :=
  funext fun a => Fin.ext (by match a with | ⟨0, _⟩ => exact h)

theorem idx2_ext {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

theorem idx3_ext {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

-- The wrap of a word by a natural number S below 2^31, which as a word reads S.
theorem toInt_wrap_word (a : BitVec 32) (S : ℕ) (hS : S < 2 ^ 31) :
    (Scalar.select (IntOp.cmpi .slt a 0#32) (IntOp.addi a (BitVec.ofNat 32 S)) a).toInt
      = Cert.Spec.wrap ((S : ℕ) : ℤ) a.toInt := by
  unfold Cert.Spec.wrap
  rw [← WordArith.toInt_ofNat_small S hS]
  exact RowGather.toInt_wrap_word _ (by rw [WordArith.toInt_ofNat_small S hS]; omega) a

variable (x0 : (⟨S8192x2048, .f32⟩ : BufTy).Contents (Elt Ideal)) (x3 : (⟨S16384x2, .i32⟩ : BufTy).Contents (Elt Ideal))
  (x4 : (⟨S16384, .f32⟩ : BufTy).Contents (Elt Ideal)) (x5 x10 x11 x12 x13 : (⟨S1024, .f32⟩ : BufTy).Contents (Elt Ideal))
  (n : Fin 8192) (e : Fin 16384) (o : Fin 1024)

theorem v7_toInt : (val_main_v7 (F := Ideal) x3 (ix2 e (0 : Fin 1))).toInt
    = Cert.Spec.wrap 2048 (x3 (ix2 e (0 : Fin 2))).toInt := by
  rw [val_main_v7_apply, val_main_v6_apply, val_main_v3_apply, val_main_v5_apply, val_main_v1_apply,
    val_main_v0_apply, val_main_v2_apply, val_main_c_apply, val_main_v4_apply, val_main_c_0_apply,
    show idx_main_v0 (idx_main_v1 (idx_main_v7 (ix2 e (0 : Fin 1)))) = ix2 e (0 : Fin 2) from
      idx2_ext (Nat.div_one _) rfl]
  exact_mod_cast toInt_wrap_word (x3 (ix2 e (0 : Fin 2))) 2048 (by norm_num)

theorem v20_toInt : (val_main_v20 (F := Ideal) x3 (ix2 e (0 : Fin 1))).toInt
    = Cert.Spec.wrap 1024 (x3 (ix2 e (1 : Fin 2))).toInt := by
  rw [val_main_v20_apply, val_main_v19_apply, val_main_v16_apply, val_main_v18_apply, val_main_v14_apply,
    val_main_v13_apply, val_main_v15_apply, val_main_c_1_apply, val_main_v17_apply, val_main_c_2_apply,
    show idx_main_v13 (idx_main_v14 (idx_main_v20 (ix2 e (0 : Fin 1)))) = ix2 e (1 : Fin 2) from
      idx2_ext (Nat.div_one _) rfl]
  exact_mod_cast toInt_wrap_word (x3 (ix2 e (1 : Fin 2))) 1024 (by norm_num)

-- The gather reads x at row n and column "wrapped source of e, clamped into 0 .. 2047".
theorem v8_at : val_main_v8 (F := Ideal) x0 x3 (ix2 n e)
    = x0 (ix2 n (Cert.Spec.clampFin 2048 (by norm_num) (Cert.Spec.wrap 2048 (x3 (ix2 e (0 : Fin 2))).toInt))) := by
  unfold val_main_v8
  refine (colGather_apply (N := 8192) (C := 2048) (n := 16384) (by norm_num)
    Facts₀.gather_S8192x2048_S16384x1_S8192x16384_0_1_n_n_1_1_81921_wf x0 (val_main_v7 (F := Ideal) x3) n e).trans
    (congrArg (fun c => x0 (ix2 n c)) (Fin.ext ?_))
  show min (BitVec.toInt (val_main_v7 (F := Ideal) x3 (ix2 e (0 : Fin 1)))).toNat (2048 - 1)
    = min (Cert.Spec.wrap 2048 (x3 (ix2 e (0 : Fin 2))).toInt).toNat (2048 - 1)
  rw [v7_toInt]

theorem v11_at : val_main_v11 (F := Ideal) x0 x3 x4 (ix2 n e)
    = x0 (ix2 n (Cert.Spec.clampFin 2048 (by norm_num) (Cert.Spec.wrap 2048 (x3 (ix2 e (0 : Fin 2))).toInt)))
        * x4 (ix1 e) := by
  rw [val_main_v11_apply, v8_at, val_main_v10_apply, val_main_v9_apply,
    show idx_main_v9 (idx_main_v10 (ix2 n e)) = ix1 e from idx1_ext rfl]
  rfl

theorem v21_at : val_main_v21 (F := Ideal) x0 x3 x4 (ix2 n o)
    = Cert.Spec.hR (fun n i => x0 (ix2 n i)) (fun c k => (x3 (ix2 c k)).toInt) (fun c => x4 (ix1 c)) n o := by
  unfold val_main_v21
  refine (colHostScatterAdd_apply (N := 8192) (C := 1024) (n := 16384)
    Facts₀.scatter_S8192x1024_S16384x1_S8192x16384_0_1_1_1_wf (val_main_v12 (F := Ideal))
    (val_main_v20 (F := Ideal) x3) (val_main_v11 (F := Ideal) x0 x3 x4) n o).trans ?_
  rw [val_main_v12_apply, val_main_cst_apply, Ideal.ofBits_def, Ideal.ofBits_zero_f32]
  unfold Cert.Spec.hR
  simp only [v20_toInt, v11_at]

theorem v34_at : val_main_v34 (F := Ideal) x10 x13 (ix2 n o) = Cert.Spec.scale (x10 (ix1 o)) (x13 (ix1 o)) := by
  rw [val_main_v34_apply, val_main_v33_apply, show idx_main_v33 (idx_main_v34 (ix2 n o)) = ix1 o from idx1_ext rfl,
    val_main_v32_apply, val_main_v31_apply, val_main_v30_apply, val_main_v29_apply, val_main_cst_3_apply]
  rfl

-- The connections' sum plus bias, rectified, less the running mean, times the scale, plus the shift.
theorem tx0_value : Cert.ReferenceIdeal.Read.val_main_v38 (F := Ideal) x0 x3 x4 x5 x10 x11 x12 x13 (ix2 n o)
    = Cert.Spec.tx0R (fun n i => x0 (ix2 n i)) (fun c k => (x3 (ix2 c k)).toInt) (fun c => x4 (ix1 c))
        (fun o => x5 (ix1 o)) (fun o => x10 (ix1 o)) (fun o => x11 (ix1 o)) (fun o => x12 (ix1 o))
        (fun o => x13 (ix1 o)) n o := by
  rw [val_main_v38_apply, val_main_v35_apply, val_main_v28_apply, val_main_v25_apply, val_main_v24_apply,
    v21_at, val_main_v23_apply, val_main_v22_apply, val_main_call0_v0_apply, val_main_call0_cst_apply,
    Ideal.ofBits_def, Ideal.ofBits_zero_f32, val_main_v27_apply, val_main_v26_apply, v34_at, val_main_v37_apply, val_main_v36_apply,
    show idx_main_v22 (idx_main_v23 (ix2 n o)) = ix1 o from idx1_ext rfl,
    show idx_main_v26 (idx_main_v27 (ix2 n o)) = ix1 o from idx1_ext rfl,
    show idx_main_v36 (idx_main_v37 (ix2 n o)) = ix1 o from idx1_ext rfl]
  rfl

end Cert.ReferenceIdeal.RefValue

end
-- ==== Proof.Ref.Weights.lean ====
import proofs.«410350_j46755013984839_3_alg».proof.Proof.Ref.Value0

noncomputable section

namespace Cert.ReferenceIdeal.RefValue

open Cert.ReferenceIdeal Cert.ReferenceIdeal.Gen Cert.ReferenceIdeal.Read Idealize.ShloMosaic Idealize.ShloMosaic.ValueIdx
open scoped BigOperators

theorem wrap_word (v : BitVec 32) :
    (Scalar.select (IntOp.cmpi .slt v 0#32) (IntOp.addi v 8192#32) v).toInt = Cert.Spec.wrap 8192 v.toInt := by
  exact_mod_cast toInt_wrap_word v 8192 (by norm_num)

variable (x1 : (⟨S2x262144, .i32⟩ : BufTy).Contents (Elt Ideal)) (x2 : (⟨S262144, .f32⟩ : BufTy).Contents (Elt Ideal))
  (e : Fin 262144)

theorem row0_apply : val_main_v40 (F := Ideal) x1 (ix1 e) = x1 (ix2 (0 : Fin 2) e) := by
  rw [val_main_v40_apply, val_main_v39_apply]
  exact congrArg x1 (idx2_ext rfl (Nat.mod_eq_of_lt e.isLt))

theorem row1_apply : val_main_v42 (F := Ideal) x1 (ix1 e) = x1 (ix2 (1 : Fin 2) e) := by
  rw [val_main_v42_apply, val_main_v41_apply]
  exact congrArg x1 (idx2_ext rfl (Nat.mod_eq_of_lt e.isLt))

theorem deg_apply (j : Fin 8192) :
    val_main_v45 (F := Ideal) x1 x2 (ix1 j)
      = Cert.Spec.deg (fun k e => (x1 (ix2 k e)).toInt) (fun e => x2 (ix1 e)) j := by
  have hs : ∀ e : Fin 262144, val_main_v44 (F := Ideal) x1 (ix2 e (0 : Fin 1)) = x1 (ix2 (0 : Fin 2) e) := fun e => by
    rw [val_main_v44_apply, show idx_main_v44 (ix2 e (0 : Fin 1)) = ix1 e from idx1_ext rfl, row0_apply]
  unfold val_main_v45 Cert.Spec.deg
  refine (ScatterSum.vecHostScatterAdd_apply Gen.scatter_S8192_S262144x1_S262144_n_0_0_1_wf _ _ _ j).trans ?_
  rw [val_main_v43_apply, val_main_cst_4_apply, Ideal.ofBits_def, Ideal.ofBits_zero_f32]
  simp only [hs]

theorem dinv_apply (j : Fin 8192) :
    val_main_v51 (F := Ideal) x1 x2 (ix1 j)
      = Cert.Spec.dinv (fun k e => (x1 (ix2 k e)).toInt) (fun e => x2 (ix1 e)) j := by
  rw [val_main_v51_apply, val_main_v47_apply, val_main_v50_apply, val_main_v49_apply,
    val_main_call1_v1_apply, val_main_call1_v0_apply, val_main_cst_7_apply,
    val_main_v46_apply, val_main_cst_5_apply, val_main_v48_apply, val_main_cst_6_apply,
    deg_apply]
  simp only [Ideal.ofBits_def, Ideal.hostUnary_rsqrt_def, Ideal.maximumf_def, Ideal.cmpf_def, Ideal.ofBits_zero_f32]
  unfold Cert.Spec.dinv Cert.Spec.eps
  exact RowGather.select_gt _ _ _

-- A gather of dinv at a start index that is the wrap of v reads dinv at the node of v.
theorem dinv_gather (idx : (⟨S262144x1, .i32⟩ : BufTy).Contents (Elt Ideal)) (v : ℤ)
    (h : (idx (ix2 e (0 : Fin 1)) : BitVec 32).toInt = Cert.Spec.wrap 8192 v) :
    Host.gather gather_S8192_S262144x1_S262144_n_0_n_n_0_1_1 (val_main_v51 (F := Ideal) x1 x2) idx (ix1 e)
      = Cert.Spec.dinv (fun k e => (x1 (ix2 k e)).toInt) (fun e => x2 (ix1 e)) (Cert.Spec.node v) :=
  (RowGather.vecGather_apply Gen.gather_S8192_S262144x1_S262144_n_0_n_n_0_1_1_wf _ _ e (Cert.Spec.node v)
    (by rw [h]; rfl)).trans (dinv_apply x1 x2 _)

theorem nw_value : val_main_v68 (F := Ideal) x1 x2 (ix1 e)
    = Cert.Spec.nw (fun k e => (x1 (ix2 k e)).toInt) (fun e => x2 (ix1 e)) e := by
  rw [val_main_v68_apply, val_main_v67_apply, val_main_v59_apply]
  unfold val_main_v58 val_main_v66
  rw [dinv_gather x1 x2 e _ (x1 (ix2 (0 : Fin 2) e)).toInt (by
      rw [val_main_v57_apply, show idx_main_v57 (ix2 e (0 : Fin 1)) = ix1 e from idx1_ext rfl, val_main_v56_apply,
        val_main_v53_apply, val_main_v55_apply, val_main_v52_apply, val_main_c_8_apply, val_main_v54_apply,
        val_main_c_9_apply, row0_apply]
      exact wrap_word _),
    dinv_gather x1 x2 e _ (x1 (ix2 (1 : Fin 2) e)).toInt (by
      rw [val_main_v65_apply, show idx_main_v65 (ix2 e (0 : Fin 1)) = ix1 e from idx1_ext rfl, val_main_v64_apply,
        val_main_v61_apply, val_main_v63_apply, val_main_v60_apply, val_main_c_10_apply, val_main_v62_apply,
        val_main_c_11_apply, row1_apply]
      exact wrap_word _)]
  rfl

end Cert.ReferenceIdeal.RefValue

end
-- ==== Proof.Ref.Value1.lean ====
import proofs.«410350_j46755013984839_3_alg».proof.Proof.Ref.Weights

noncomputable section

namespace Cert.ReferenceIdeal.RefValue

open Cert.ReferenceIdeal Cert.ReferenceIdeal.Read Idealize.ShloMosaic Idealize.ShloMosaic.ValueIdx Idealize.SL.Sem Idealize.ShloMosaic.StableHlo
open scoped BigOperators

-- One propagation step: rows of z gathered at the wrapped sources, times the edge weight, summed at the destinations.
theorem step_apply (ei : Fin 2 → Fin 262144 → ℤ) (nwf : Fin 262144 → EReal)
    (z zero : (⟨S8192x1024, .f32⟩ : BufTy).Contents (Elt Ideal))
    (w : (⟨S262144x1024, .f32⟩ : BufTy).Contents (Elt Ideal))
    (src dst : (⟨S262144x1, .i32⟩ : BufTy).Contents (Elt Ideal))
    (hzero : ∀ i, zero i = 0)
    (hw : ∀ e f, w (ix2 e f) = nwf e)
    (hsrc : ∀ e, (src (ix2 e (0 : Fin 1))).toInt = Cert.Spec.wrap 8192 (ei 0 e))
    (hdst : ∀ e, (dst (ix2 e (0 : Fin 1))).toInt = ei 1 e)
    (j : Fin 8192) (f : Fin 1024) :
    Host.scatterAdd (F := Ideal) (φ := .f32) scatter_S8192x1024_S262144x1_S262144x1024_1_0_0_1 zero dst
        (mulf (F := Ideal) (φ := .f32) w (Host.gather gather_S8192x1024_S262144x1_S262144x1024_1_0_n_n_0_1_11024 z src)) (ix2 j f)
      = Cert.Spec.lhatRg ei nwf (fun n o => z (ix2 n o)) j f := by
  refine (ScatterSum.rowHostScatterAdd_apply _ zero dst _ j f).trans ?_
  rw [hzero]
  unfold Cert.Spec.lhatRg
  refine congrArg (fun s => (0 : EReal) + s) (Finset.sum_congr ?_ (fun e _ => ?_))
  · ext e
    simp only [Finset.mem_filter, Finset.mem_univ, true_and, hdst]
  · rw [mulf_apply, hw]
    refine congrArg (nwf e * ·) ((RowGather.rowGather_apply (by norm_num) _ z src e f).trans
      (congrArg (fun c => z (ix2 c f)) (Fin.ext ?_)))
    show min (src (ix2 e (0 : Fin 1))).toInt.toNat (8192 - 1) = min (Cert.Spec.wrap 8192 (ei 0 e)).toNat (8192 - 1)
    rw [hsrc]

variable (x0 : (⟨S8192x2048, .f32⟩ : BufTy).Contents (Elt Ideal)) (x1 : (⟨S2x262144, .i32⟩ : BufTy).Contents (Elt Ideal))
  (x2 : (⟨S262144, .f32⟩ : BufTy).Contents (Elt Ideal)) (x3 : (⟨S16384x2, .i32⟩ : BufTy).Contents (Elt Ideal))
  (x4 : (⟨S16384, .f32⟩ : BufTy).Contents (Elt Ideal)) (x5 : (⟨S1024, .f32⟩ : BufTy).Contents (Elt Ideal))
  (x6 : (⟨S3x1024x64, .f32⟩ : BufTy).Contents (Elt Ideal)) (x7 : (⟨S64, .f32⟩ : BufTy).Contents (Elt Ideal))
  (x8 : (⟨S2x64, .f32⟩ : BufTy).Contents (Elt Ideal)) (x9 : (⟨S2, .f32⟩ : BufTy).Contents (Elt Ideal))
  (x10 x11 x12 x13 : (⟨S1024, .f32⟩ : BufTy).Contents (Elt Ideal))
  (x14 x15 x16 x17 : (⟨S64, .f32⟩ : BufTy).Contents (Elt Ideal))
  (e : Fin 262144) (n : Fin 8192) (o : Fin 1024) (f : Fin 64)

abbrev eiOf : Fin 2 → Fin 262144 → ℤ := fun k e => (x1 (ix2 k e)).toInt
abbrev t0Of : Fin 8192 → Fin 1024 → EReal :=
  fun n o => val_main_v38 (F := Ideal) x0 x3 x4 x5 x10 x11 x12 x13 (ix2 n o)
abbrev nwOf : Fin 262144 → EReal := fun e => val_main_v68 (F := Ideal) x1 x2 (ix1 e)

theorem src78_toInt : (val_main_v78 (F := Ideal) x1 (ix2 e (0 : Fin 1))).toInt = Cert.Spec.wrap 8192 (eiOf x1 0 e) := by
  rw [val_main_v78_apply, show idx_main_v78 (ix2 e (0 : Fin 1)) = ix1 e from idx1_ext rfl,
    val_main_v77_apply, val_main_v74_apply, val_main_v76_apply, val_main_v73_apply, val_main_v75_apply,
    val_main_c_12_apply, val_main_c_13_apply, row0_apply]
  exact wrap_word _

theorem dst83_toInt : (val_main_v83 (F := Ideal) x1 (ix2 e (0 : Fin 1))).toInt = eiOf x1 1 e := by
  rw [val_main_v83_apply, show idx_main_v83 (ix2 e (0 : Fin 1)) = ix1 e from idx1_ext rfl, row1_apply]

theorem w80_at : val_main_v80 (F := Ideal) x1 x2 (ix2 e o) = nwOf x1 x2 e := by
  rw [val_main_v80_apply, val_main_v72_apply]
  exact congrArg (val_main_v68 (F := Ideal) x1 x2) (idx1_ext rfl)

theorem zero82_at (i : S8192x1024.Idx) : val_main_v82 (F := Ideal) i = 0 := by
  rw [val_main_v82_apply, val_main_cst_14_apply]
  exact Ideal.ofBits_zero_f32

theorem v84_at : val_main_v84 (F := Ideal) x0 x1 x2 x3 x4 x5 x10 x11 x12 x13 (ix2 n o)
    = Cert.Spec.lhatRg (eiOf x1) (nwOf x1 x2) (t0Of x0 x3 x4 x5 x10 x11 x12 x13) n o := by
  unfold val_main_v84 val_main_v81 val_main_v79
  exact step_apply (eiOf x1) (nwOf x1 x2) (val_main_v38 (F := Ideal) x0 x3 x4 x5 x10 x11 x12 x13) _ _ _ _
    zero82_at (w80_at x1 x2) (src78_toInt x1) (dst83_toInt x1) n o

-- The second step's index, weight and zero arrays are the first step's, computed again.
theorem v101_at : val_main_v101 (F := Ideal) x0 x1 x2 x3 x4 x5 x10 x11 x12 x13 (ix2 n o)
    = Cert.Spec.lhatRg (eiOf x1) (nwOf x1 x2)
        (Cert.Spec.lhatRg (eiOf x1) (nwOf x1 x2) (t0Of x0 x3 x4 x5 x10 x11 x12 x13)) n o := by
  unfold val_main_v101 val_main_v98 val_main_v96
  refine (step_apply (eiOf x1) (nwOf x1 x2) (val_main_v84 (F := Ideal) x0 x1 x2 x3 x4 x5 x10 x11 x12 x13) _ _ _ _
    zero82_at (w80_at x1 x2) (src78_toInt x1) (dst83_toInt x1) n o).trans ?_
  exact congrArg (fun z => Cert.Spec.lhatRg (eiOf x1) (nwOf x1 x2) z n o)
    (funext fun n => funext fun o => v84_at x0 x1 x2 x3 x4 x5 x10 x11 x12 x13 n o)

-- Slice k of the weight, reshaped to [1024, 64], reads the weight at (k, o, f).
theorem slice_idx (k : Fin 3) {i : S3x1024x64.Idx} (h0 : (i 0).val = k.val)
    (h1 : (i 1).val = (o.val * 64 + f.val) / 64 % 1024) (h2 : (i 2).val = (o.val * 64 + f.val) % 64) :
    i = ix3 k o f :=
  idx3_ext h0 (by have := o.isLt; have := f.isLt; show (i 1).val = o.val; omega)
    (by have := f.isLt; show (i 2).val = f.val; omega)

theorem v70_at : val_main_v70 (F := Ideal) x6 (ix2 o f) = x6 (ix3 (0 : Fin 3) o f) := by
  rw [val_main_v70_apply, val_main_v69_apply]
  exact congrArg x6 (slice_idx o f 0 rfl rfl rfl)

theorem v86_at : val_main_v86 (F := Ideal) x6 (ix2 o f) = x6 (ix3 (1 : Fin 3) o f) := by
  rw [val_main_v86_apply, val_main_v85_apply]
  exact congrArg x6 (slice_idx o f 1 rfl rfl rfl)

theorem v106_at : val_main_v106 (F := Ideal) x6 (ix2 o f) = x6 (ix3 (2 : Fin 3) o f) := by
  rw [val_main_v106_apply, val_main_v105_apply]
  exact congrArg x6 (slice_idx o f 2 rfl rfl rfl)

-- The three products summed: t0, its propagation, and twice the second propagation less t0, each against its slice.
theorem v108_at : val_main_v108 (F := Ideal) x0 x1 x2 x3 x4 x5 x6 x10 x11 x12 x13 (ix2 n f)
    = ((∑ o : Fin 1024, (t0Of x0 x3 x4 x5 x10 x11 x12 x13) n o * x6 (ix3 (0 : Fin 3) o f))
        + (∑ o : Fin 1024, Cert.Spec.lhatRg (eiOf x1) (nwOf x1 x2) (t0Of x0 x3 x4 x5 x10 x11 x12 x13) n o
            * x6 (ix3 (1 : Fin 3) o f)))
      + (∑ o : Fin 1024, (Cert.Spec.two * Cert.Spec.lhatRg (eiOf x1) (nwOf x1 x2)
            (Cert.Spec.lhatRg (eiOf x1) (nwOf x1 x2) (t0Of x0 x3 x4 x5 x10 x11 x12 x13)) n o
          - (t0Of x0 x3 x4 x5 x10 x11 x12 x13) n o) * x6 (ix3 (2 : Fin 3) o f)) := by
  rw [val_main_v108_apply, val_main_v88_apply, val_main_v71_apply, val_main_v87_apply, val_main_v107_apply]
  refine congrArg₂ (· + ·) (congrArg₂ (· + ·) ?_ ?_) ?_ <;> refine Finset.sum_congr rfl fun o _ => ?_
  · rw [show lidx_main_v71 (ix2 n f) o = ix2 n o from idx2_ext rfl rfl,
      show ridx_main_v71 (ix2 n f) o = ix2 o f from idx2_ext rfl rfl, v70_at]
  · rw [show lidx_main_v87 (ix2 n f) o = ix2 n o from idx2_ext rfl rfl,
      show ridx_main_v87 (ix2 n f) o = ix2 o f from idx2_ext rfl rfl, v86_at, v84_at]
  · rw [show lidx_main_v107 (ix2 n f) o = ix2 n o from idx2_ext rfl rfl,
      show ridx_main_v107 (ix2 n f) o = ix2 o f from idx2_ext rfl rfl, v106_at, val_main_v104_apply,
      val_main_v103_apply, val_main_v102_apply, val_main_cst_18_apply, v101_at]
    rfl

theorem v125_at : val_main_v125 (F := Ideal) x0 x1 x2 x3 x4 x5 x6 x7 x10 x11 x12 x13 x14 x15 x16 x17 (ix2 n f)
    = Cert.Spec.bnR (max (val_main_v108 (F := Ideal) x0 x1 x2 x3 x4 x5 x6 x10 x11 x12 x13 (ix2 n f) + x7 (ix1 f)) 0)
        (x14 (ix1 f)) (x15 (ix1 f)) (x16 (ix1 f)) (x17 (ix1 f)) := by
  rw [val_main_v125_apply, val_main_v122_apply, val_main_v115_apply, val_main_v112_apply, val_main_v111_apply,
    val_main_v110_apply, val_main_v109_apply, val_main_call2_v0_apply, val_main_call2_cst_apply,
    val_main_v114_apply, val_main_v113_apply, val_main_v121_apply, val_main_v120_apply, val_main_v119_apply,
    val_main_v118_apply, val_main_v117_apply, val_main_v116_apply, val_main_cst_19_apply,
    val_main_v124_apply, val_main_v123_apply,
    show idx_main_v109 (idx_main_v110 (ix2 n f)) = ix1 f from idx1_ext rfl,
    show idx_main_v113 (idx_main_v114 (ix2 n f)) = ix1 f from idx1_ext rfl,
    show idx_main_v120 (idx_main_v121 (ix2 n f)) = ix1 f from idx1_ext rfl,
    show idx_main_v123 (idx_main_v124 (ix2 n f)) = ix1 f from idx1_ext rfl]
  simp only [Ideal.addf_def, Ideal.subf_def, Ideal.mulf_def, Ideal.maximumf_def, Ideal.ofBits_def,
    Ideal.hostUnary_rsqrt_def, Ideal.ofBits_zero_f32]
  rfl

-- The 64 -> 2 head over the normalised sum of the three products.
theorem out_value_of (q : Fin 2) :
    Cert.ReferenceIdeal.Read.val_main_v130 (F := Ideal) x0 x1 x2 x3 x4 x5 x6 x7 x8 x9 x10 x11 x12 x13 x14 x15 x16 x17 (ix2 n q)
      = Cert.Spec.outRg (fun k e => (x1 (ix2 k e)).toInt) (fun k o f => x6 (ix3 k o f)) (fun f => x7 (ix1 f))
          (fun q f => x8 (ix2 q f)) (fun q => x9 (ix1 q)) (fun f => x14 (ix1 f)) (fun f => x15 (ix1 f))
          (fun f => x16 (ix1 f)) (fun f => x17 (ix1 f))
          (fun n o => Cert.ReferenceIdeal.Read.val_main_v38 (F := Ideal) x0 x3 x4 x5 x10 x11 x12 x13 (ix2 n o))
          (fun e => Cert.ReferenceIdeal.Read.val_main_v68 (F := Ideal) x1 x2 (ix1 e)) n q := by
  rw [val_main_v130_apply, val_main_v129_apply, val_main_v128_apply, val_main_v127_apply,
    show idx_main_v128 (idx_main_v129 (ix2 n q)) = ix1 q from idx1_ext rfl]
  unfold Cert.Spec.outRg
  refine congrArg (· + x9 (ix1 q)) (Finset.sum_congr rfl fun f _ => ?_)
  rw [show lidx_main_v127 (ix2 n q) f = ix2 n f from idx2_ext rfl rfl,
    show ridx_main_v127 (ix2 n q) f = ix2 f q from idx2_ext rfl rfl, val_main_v126_apply,
    show idx_main_v126 (ix2 f q) = ix2 q f from idx2_ext rfl rfl, v125_at, v108_at]

end Cert.ReferenceIdeal.RefValue

end
-- ==== Proof.Ref.RValue.lean ====
import proofs.«410350_j46755013984839_3_alg».proof.Proof.Ref.Value1

noncomputable section

namespace Cert.ReferenceIdeal.RefValue

open Cert.ReferenceIdeal Cert.ReferenceIdeal.Gen Idealize.ShloMosaic Idealize.ShloMosaic.TcCoe Idealize.SL.Sem
open Idealize.ShloMosaic.ValueIdx

-- The result is outRg of the program's first layer and edge weights, and these are tx0R and nw.
theorem res_value (m : (ℓ : Loc nD τ sig) → Buf (Elt Ideal) ℓ) (c : Dev nD) (n : Fin 8192) (q : Fin 2) :
    (Cert.ReferenceIdeal.Value.res_main_v130 (F := Ideal) m c : S8192x2.Idx → EReal) (ix2 n q)
      = Cert.Spec.outR (fun n i => ((m ((c.tc : Thread nD τ).loc main_arg0)) : S8192x2048.Idx → EReal) (ix2 n i))
          (fun k e => (((m ((c.tc : Thread nD τ).loc main_arg1)) : S2x262144.Idx → BitVec 32) (ix2 k e)).toInt)
          (fun e => ((m ((c.tc : Thread nD τ).loc main_arg2)) : S262144.Idx → EReal) (ix1 e))
          (fun cn k => (((m ((c.tc : Thread nD τ).loc main_arg3)) : S16384x2.Idx → BitVec 32) (ix2 cn k)).toInt)
          (fun cn => ((m ((c.tc : Thread nD τ).loc main_arg4)) : S16384.Idx → EReal) (ix1 cn))
          (fun o => ((m ((c.tc : Thread nD τ).loc main_arg5)) : S1024.Idx → EReal) (ix1 o))
          (fun k o f => ((m ((c.tc : Thread nD τ).loc main_arg6)) : S3x1024x64.Idx → EReal) (ix3 k o f))
          (fun f => ((m ((c.tc : Thread nD τ).loc main_arg7)) : S64.Idx → EReal) (ix1 f))
          (fun q f => ((m ((c.tc : Thread nD τ).loc main_arg8)) : S2x64.Idx → EReal) (ix2 q f))
          (fun q => ((m ((c.tc : Thread nD τ).loc main_arg9)) : S2.Idx → EReal) (ix1 q))
          (fun o => ((m ((c.tc : Thread nD τ).loc main_arg10)) : S1024.Idx → EReal) (ix1 o))
          (fun o => ((m ((c.tc : Thread nD τ).loc main_arg11)) : S1024.Idx → EReal) (ix1 o))
          (fun o => ((m ((c.tc : Thread nD τ).loc main_arg12)) : S1024.Idx → EReal) (ix1 o))
          (fun o => ((m ((c.tc : Thread nD τ).loc main_arg13)) : S1024.Idx → EReal) (ix1 o))
          (fun f => ((m ((c.tc : Thread nD τ).loc main_arg14)) : S64.Idx → EReal) (ix1 f))
          (fun f => ((m ((c.tc : Thread nD τ).loc main_arg15)) : S64.Idx → EReal) (ix1 f))
          (fun f => ((m ((c.tc : Thread nD τ).loc main_arg16)) : S64.Idx → EReal) (ix1 f))
          (fun f => ((m ((c.tc : Thread nD τ).loc main_arg17)) : S64.Idx → EReal) (ix1 f)) n q := by
  rw [Cert.ReferenceIdeal.Read.val_main_v130_eq, out_value_of]
  unfold Cert.Spec.outR
  simp only [tx0_value, nw_value]

end Cert.ReferenceIdeal.RefValue

end
-- ==== Proof.Alg.Basic.lean ====
import proofs.«410350_j46755013984839_3_alg».proof.Proof.Spec
import Mathlib.Tactic.Ring
import Mathlib.Tactic.Positivity

noncomputable section

namespace Cert.Spec

open Idealize.ShloMosaic
open scoped BigOperators

-- The offset is the positive real 10995116 * 2^(-40).
theorem eps_pos : 0 < eps := by
  have h : eps = ((10995116 * 2 ^ (-40 : ℤ) : ℝ) : EReal) := by
    unfold eps
    simp [Ideal.ofBits, Ideal.ieee, -EReal.coe_mul]
  rw [h]
  exact EReal.coe_pos.2 (by positivity)

theorem two_eq : two = ((2 : ℝ) : EReal) := by
  unfold two
  simp [Ideal.ofBits, Ideal.ieee, -EReal.coe_mul]
  norm_num

section Real
variable {a b : EReal}

theorem add_fin : (∃ r : ℝ, a = r) → (∃ r : ℝ, b = r) → ∃ r : ℝ, a + b = r := by
  rintro ⟨x, rfl⟩ ⟨y, rfl⟩
  exact ⟨x + y, rfl⟩

theorem mul_fin : (∃ r : ℝ, a = r) → (∃ r : ℝ, b = r) → ∃ r : ℝ, a * b = r := by
  rintro ⟨x, rfl⟩ ⟨y, rfl⟩
  exact ⟨x * y, rfl⟩

theorem sub_fin : (∃ r : ℝ, a = r) → (∃ r : ℝ, b = r) → ∃ r : ℝ, a - b = r := by
  rintro ⟨x, rfl⟩ ⟨y, rfl⟩
  exact ⟨x - y, rfl⟩

theorem neg_fin : (∃ r : ℝ, a = r) → ∃ r : ℝ, -a = r := by
  rintro ⟨x, rfl⟩
  exact ⟨-x, rfl⟩

-- The maximum is one of its two arguments.
theorem max_zero_fin (ha : ∃ r : ℝ, a = r) : ∃ r : ℝ, max a 0 = r := by
  rcases max_choice a 0 with h | h <;> rw [h]
  exacts [ha, ⟨0, rfl⟩]

-- At plus infinity the reciprocal square root is 0.
theorem rsqrt_fin (h : 0 < a) : ∃ r : ℝ, Ideal.rsqrt a = r := by
  induction a using EReal.rec with
  | bot => exact absurd h not_lt_bot
  | coe r =>
    have hr : 0 < r := EReal.coe_pos.1 h
    exact ⟨_, by rw [Ideal.rsqrt_coe, if_neg hr.le.not_gt, if_neg hr.ne']⟩
  | top => exact ⟨0, rfl⟩

end Real

section Sums
variable {ι κ : Type*} {s : Finset ι}

theorem sum_coe (f : ι → ℝ) : ∑ i ∈ s, (f i : EReal) = ((∑ i ∈ s, f i : ℝ) : EReal) :=
  (map_sum (⟨⟨(↑), EReal.coe_zero⟩, EReal.coe_add⟩ : ℝ →+ EReal) f s).symm

theorem sum_fin {f : ι → EReal} (h : ∀ i, ∃ r : ℝ, f i = r) : ∃ r : ℝ, ∑ i ∈ s, f i = r := by
  choose g hg using h
  exact ⟨_, by rw [funext hg, sum_coe]⟩

-- Real entries distribute over the inner sum; exchanging the sums, the sum over i keeps the term i = src c.
theorem sum_fibre [Fintype ι] [Fintype κ] [DecidableEq ι] {src : κ → ι} {P : ι → κ → Prop} {Q : κ → Prop}
    [∀ i, DecidablePred (P i)] [DecidablePred Q] (hP : ∀ i c, P i c ↔ Q c ∧ src c = i) {a : κ → EReal} {b : ι → EReal}
    (ha : ∀ c, ∃ r : ℝ, a c = r) (hb : ∀ i, ∃ r : ℝ, b i = r) :
    ∑ i, (0 + ∑ c ∈ Finset.univ.filter (P i), a c) * b i = 0 + ∑ c ∈ Finset.univ.filter Q, a c * b (src c) := by
  choose a' ha using ha
  choose b' hb using hb
  simp only [ha, hb, zero_add, sum_coe, ← EReal.coe_mul, EReal.coe_eq_coe_iff]
  simp only [Finset.sum_mul, Finset.sum_filter, hP]
  rw [Finset.sum_comm]
  refine Finset.sum_congr rfl fun c _ => ?_
  by_cases hq : Q c <;> simp [hq]

end Sums

section Norm
variable {a g be mu var : EReal}

theorem scale_fin (hg : ∃ r : ℝ, g = r) (h0 : 0 ≤ var) : ∃ r : ℝ, scale g var = r :=
  mul_fin hg (rsqrt_fin (eps_pos.trans_le (le_add_of_nonneg_left h0)))

-- With s the real scale, a * s + (beta - mu * s) = (a - mu) * s + beta in the reals.
theorem bn (ha : ∃ r : ℝ, a = r) (hg : ∃ r : ℝ, g = r) (hbe : ∃ r : ℝ, be = r) (hmu : ∃ r : ℝ, mu = r) (h0 : 0 ≤ var) :
    bnK a g be mu var = bnR a g be mu var ∧ ∃ r : ℝ, bnR a g be mu var = r := by
  refine ⟨?_, add_fin (mul_fin (sub_fin ha hmu) (scale_fin hg h0)) hbe⟩
  obtain ⟨s, hs⟩ := scale_fin hg h0
  obtain ⟨a, rfl⟩ := ha
  obtain ⟨be, rfl⟩ := hbe
  obtain ⟨mu, rfl⟩ := hmu
  unfold bnK bnR
  rw [hs]
  norm_cast
  ring

end Norm

-- An index in range is neither wrapped nor clamped.
theorem wrap_of_nonneg {m v : ℤ} (h : 0 ≤ v) : wrap m v = v := if_neg h.not_gt

theorem clamp_wrap_iff {n : ℕ} {hn : 0 < n} {m v : ℤ} (h : 0 ≤ v ∧ v < n) (i : Fin n) :
    clampFin n hn (wrap m v) = i ↔ v = i.val := by
  rw [wrap_of_nonneg h.1, Fin.ext_iff]
  show min v.toNat (n - 1) = i.val ↔ _
  omega

end Cert.Spec

end
-- ==== Proof.Alg.Layer0.lean ====
import proofs.«410350_j46755013984839_3_alg».proof.Proof.Alg.Basic

noncomputable section

namespace Cert.Spec

open scoped BigOperators

variable {x : Fin 8192 → Fin 2048 → EReal} {ei : Fin 2 → Fin 262144 → ℤ} {ew : Fin 262144 → EReal}
  {sm : Fin 16384 → Fin 2 → ℤ} {w : Fin 16384 → EReal} {b : Fin 1024 → EReal}
  {cw : Fin 3 → Fin 1024 → Fin 64 → EReal} {cb : Fin 64 → EReal} {lw : Fin 2 → Fin 64 → EReal} {lb : Fin 2 → EReal}
  {gS beS muS varS : Fin 1024 → EReal} {g1 be1 mu1 var1 : Fin 64 → EReal}

-- The connections with source i and target o are those with target o whose gathered position is i.
theorem dense_eq_edge (hx : ∀ n i, ∃ r : ℝ, x n i = (r : EReal)) (hw : ∀ c, ∃ r : ℝ, w c = (r : EReal))
    (hsm : ∀ c, 0 ≤ sm c 0 ∧ sm c 0 < 2048) (n : Fin 8192) (o : Fin 1024) :
    ∑ i : Fin 2048, x n i * WdK sm w i o = hR x sm w n o :=
  (Finset.sum_congr rfl fun _ _ => mul_comm _ _).trans <|
    (sum_fibre (fun i c => by rw [clamp_wrap_iff (hsm c), wrap_of_nonneg (hsm c).1, and_comm]) hw (hx n)).trans <|
      congrArg (0 + ·) (Finset.sum_congr rfl fun _ _ => mul_comm _ _)

-- Both readings of the first layer give the same real number.
theorem tx0 (h : Admissible x ei ew sm w b cw cb lw lb gS beS muS varS g1 be1 mu1 var1) (n : Fin 8192) (o : Fin 1024) :
    tx0K x sm w b gS beS muS varS n o = tx0R x sm w b gS beS muS varS n o
      ∧ ∃ r : ℝ, tx0R x sm w b gS beS muS varS n o = (r : EReal) := by
  unfold tx0K tx0R T0
  rw [dense_eq_edge h.x_fin h.w_fin h.sm_in_range]
  exact bn (max_zero_fin (add_fin (add_fin ⟨0, rfl⟩ (sum_fin fun c => mul_fin (h.x_fin n _) (h.w_fin c))) (h.b_fin o)))
    (h.gS_fin o) (h.beS_fin o) (h.muS_fin o) (h.varS_nonneg o)

end Cert.Spec

end
-- ==== Proof.Alg.Propagate.lean ====
import proofs.«410350_j46755013984839_3_alg».proof.Proof.Alg.Basic

noncomputable section

namespace Cert.Spec

open scoped BigOperators

variable {ei : Fin 2 → Fin 262144 → ℤ} {ew nwf : Fin 262144 → EReal} {z : Fin 8192 → Fin 1024 → EReal}

-- The edges with destination j and source i are those with destination j whose gathered source is i.
theorem prop_eq (hei : ∀ k e, 0 ≤ ei k e ∧ ei k e < 8192) (hnw : ∀ e, ∃ r : ℝ, nwf e = (r : EReal))
    (hz : ∀ j f, ∃ r : ℝ, z j f = (r : EReal)) : P1 (AKg ei nwf) z = lhatRg ei nwf z :=
  funext fun _ => funext fun f => sum_fibre (fun i e => by
    unfold node
    rw [clamp_wrap_iff (hei 0 e), wrap_of_nonneg (hei 1 e).1, wrap_of_nonneg (hei 0 e).1]) hnw fun i => hz i f

theorem prop_fin (hnw : ∀ e, ∃ r : ℝ, nwf e = (r : EReal)) (hz : ∀ j f, ∃ r : ℝ, z j f = (r : EReal)) (j : Fin 8192)
    (f : Fin 1024) : ∃ r : ℝ, lhatRg ei nwf z j f = (r : EReal) :=
  add_fin ⟨0, rfl⟩ (sum_fin fun e => mul_fin (hnw e) (hz _ f))

-- Where the degree is positive so is the larger of it and the offset.
theorem nw_fin (hew : ∀ e, ∃ r : ℝ, ew e = (r : EReal)) (e : Fin 262144) : ∃ r : ℝ, nw ei ew e = (r : EReal) := by
  have hd : ∀ j, ∃ r : ℝ, dinv ei ew j = (r : EReal) := fun j => by
    unfold dinv
    split_ifs with h
    exacts [rsqrt_fin (lt_max_of_lt_left h), ⟨0, rfl⟩]
  exact neg_fin (mul_fin (mul_fin (hd _) (hew e)) (hd _))

end Cert.Spec

end
-- ==== Proof.Alg.Final.lean ====
import proofs.«410350_j46755013984839_3_alg».proof.Proof.Alg.Layer0
import proofs.«410350_j46755013984839_3_alg».proof.Proof.Alg.Propagate

noncomputable section

namespace Cert.Spec

open scoped BigOperators

variable {x : Fin 8192 → Fin 2048 → EReal} {ei : Fin 2 → Fin 262144 → ℤ} {ew : Fin 262144 → EReal}
  {sm : Fin 16384 → Fin 2 → ℤ} {w : Fin 16384 → EReal} {b : Fin 1024 → EReal}
  {cw : Fin 3 → Fin 1024 → Fin 64 → EReal} {cb : Fin 64 → EReal} {lw : Fin 2 → Fin 64 → EReal} {lb : Fin 2 → EReal}
  {gS beS muS varS : Fin 1024 → EReal} {g1 be1 mu1 var1 : Fin 64 → EReal}

-- The first layers agree and are real; each dense propagation step of a real array is the step over edges, and real.
theorem outK_eq_outR (h : Admissible x ei ew sm w b cw cb lw lb gS beS muS varS g1 be1 mu1 var1) :
    outK x ei ew sm w b cw cb lw lb gS beS muS varS g1 be1 mu1 var1
      = outR x ei ew sm w b cw cb lw lb gS beS muS varS g1 be1 mu1 var1 := by
  have hnw := nw_fin (ei := ei) h.ew_fin
  have ht := fun n o => (tx0 h n o).2
  have hl := prop_fin (ei := ei) hnw ht
  have hl2 := prop_fin (ei := ei) hnw hl
  have hP2 : ∀ A z r, P2 A z r = fun n f => two * P1 A z n f - r n f := fun _ _ _ => rfl
  funext n q
  unfold outK outR AK outKg outRg T3
  rw [funext fun n => funext fun o => (tx0 h n o).1, hP2, prop_eq h.ei_range hnw ht, prop_eq h.ei_range hnw hl]
  refine congrArg (· + lb q) (Finset.sum_congr rfl fun f _ => congrArg (· * lw q f) ?_)
  exact (bn (max_zero_fin (add_fin (add_fin (add_fin
    (sum_fin fun o => mul_fin (ht n o) (h.cw_fin 0 o f))
    (sum_fin fun o => mul_fin (hl n o) (h.cw_fin 1 o f)))
    (sum_fin fun o => mul_fin (sub_fin (mul_fin ⟨2, two_eq⟩ (hl2 n o)) (ht n o)) (h.cw_fin 2 o f)))
    (h.cb_fin f))) (h.g1_fin f) (h.be1_fin f) (h.mu1_fin f) (h.var1_nonneg f)).1

end Cert.Spec

end
-- ==== Proof.PreDecode.lean ====
import proofs.«410350_j46755013984839_3_alg».proof.Pre_finite_inputs
import proofs.«410350_j46755013984839_3_alg».proof.Proof.Gen.Pre_finite_inputs
import proofs.«410350_j46755013984839_3_alg».proof.Proof.Spec
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal.Laws

noncomputable section

namespace Cert.Proof.PreDecode

open Idealize.ShloMosaic Idealize.ShloMosaic.ValueIdx
open Cert.Pre_finite_inputs

instance : Subsingleton S_.Idx := ⟨fun _ _ => funext fun d => d.elim0⟩

-- An and-reduction over a whole array that came out 1 had a 1 at every index.
theorem all {s : Shape} {axes : List (Fin s.rank)} {p : IVec s 1} {init : IVec S_ 1} {hr : s.ReducesTo axes S_}
    {hu : 0 < S_.numel} (e : Host.reduce IntOp.andi p init hr hu ix0 = 1#1) (i : s.Idx) : p i = 1#1 :=
  Host.reduce_andi_all p init hr hu ix0 e i

-- The pattern 0x7F800000 denotes +inf; only a real number has absolute value below it.
theorem real_of_abs_lt_inf {x : EReal} (h : Ideal.cmp .olt (max x (-x)) (Ideal.ofBits .f32 0x7F800000#32) = 1#1) :
    ∃ r : ℝ, x = (r : EReal) := by
  rw [show Ideal.ofBits .f32 0x7F800000#32 = (⊤ : EReal) by simp [Ideal.ofBits, Ideal.ieee]] at h
  simp only [Ideal.cmp, StableHlo.Predicate.ofBool_eq_one_iff, decide_eq_true_eq] at h
  induction x using EReal.rec with
  | coe r => exact ⟨r, rfl⟩
  | _ => simp at h

theorem nonneg_of_oge_zero {x : EReal} (h : Ideal.cmp .oge x (Ideal.ofBits .f32 0x00000000#32) = 1#1) : 0 ≤ x := by
  rw [Ideal.ofBits_zero_f32] at h
  simpa only [Ideal.cmp, StableHlo.Predicate.ofBool_eq_one_iff, decide_eq_true_eq] using h

theorem range_of_cmp {w lo hi : BitVec 32} (h : IntOp.andi (IntOp.cmpi .sge w lo) (IntOp.cmpi .slt w hi) = 1#1) :
    lo.toInt ≤ w.toInt ∧ w.toInt < hi.toInt :=
  (IntOp.andi_eq_one.1 h).imp IntOp.cmpi_sge.1 IntOp.cmpi_slt.1

-- Column 0 of a [16384 x 2] array, sliced out and flattened, holds the array's (c, 0) at c: same row-major position.
theorem slice_col0_apply (a : IVec S16384x2 32) (hs : S16384x2.Slices ![0, 0] S16384x1) (hc : S16384x1.ShapeCasts S16384)
    (c : Fin 16384) : shapeCast S16384 (extractStridedSlice S16384x1 ![0, 0] a hs) hc (ix1 c) = a (ix2 c 0) :=
  (shapeCast_apply _ hc _ (ix2 c 0) (by
    rw [Shape.rowMajor_val_two, Shape.rowMajor_val_one]
    show c.val * 1 + 0 = c.val
    omega)).trans
    (extractStridedSlice_apply _ a hs _ _ fun b => match b with | ⟨0, _⟩ | ⟨1, _⟩ => (Nat.zero_add _).symm)

theorem admissible_of_pre
    (a0 : FVec Ideal S8192x2048 .f32) (a1 : IVec S2x262144 32) (a2 : FVec Ideal S262144 .f32) (a3 : IVec S16384x2 32)
    (a4 : FVec Ideal S16384 .f32) (a5 : FVec Ideal S1024 .f32) (a6 : FVec Ideal S3x1024x64 .f32) (a7 : FVec Ideal S64 .f32)
    (a8 : FVec Ideal S2x64 .f32) (a9 : FVec Ideal S2 .f32) (a10 a11 a12 a13 : FVec Ideal S1024 .f32)
    (a14 a15 a16 a17 : FVec Ideal S64 .f32)
    (h : Cert.Pre_finite_inputs.fn (F := Ideal) a0 a1 a2 a3 a4 a5 a6 a7 a8 a9 a10 a11 a12 a13 a14 a15 a16 a17 = (fun _ => 1#1)) :
    Cert.Spec.Admissible (fun n i => a0 (ix2 n i)) (fun k e => (a1 (ix2 k e)).toInt) (fun e => a2 (ix1 e))
      (fun c k => (a3 (ix2 c k)).toInt) (fun c => a4 (ix1 c)) (fun o => a5 (ix1 o)) (fun k o f => a6 (ix3 k o f))
      (fun f => a7 (ix1 f)) (fun q f => a8 (ix2 q f)) (fun q => a9 (ix1 q)) (fun o => a10 (ix1 o)) (fun o => a11 (ix1 o))
      (fun o => a12 (ix1 o)) (fun o => a13 (ix1 o)) (fun f => a14 (ix1 f)) (fun f => a15 (ix1 f)) (fun f => a16 (ix1 f))
      (fun f => a17 (ix1 f)) := by
  have h0 := congrFun h ix0
  dsimp only [fn, fn_part1, fn_part2, fn_part3, fn_part4, fn_part5, fn_part6] at h0
  simp only [andi, IntOp.andi_eq_one] at h0
  obtain ⟨⟨⟨⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩, c17⟩, c18⟩, c19⟩ := h0
  exact ⟨fun _ _ => real_of_abs_lt_inf (all c0 _), fun _ => real_of_abs_lt_inf (all c1 _),
    fun _ => real_of_abs_lt_inf (all c2 _), fun _ => real_of_abs_lt_inf (all c3 _),
    fun _ _ _ => real_of_abs_lt_inf (all c4 _), fun _ => real_of_abs_lt_inf (all c5 _),
    fun _ _ => real_of_abs_lt_inf (all c6 _), fun _ => real_of_abs_lt_inf (all c7 _),
    fun _ => real_of_abs_lt_inf (all c8 _), fun _ => real_of_abs_lt_inf (all c9 _),
    fun _ => real_of_abs_lt_inf (all c10 _), fun _ => real_of_abs_lt_inf (all c11 _),
    fun _ => real_of_abs_lt_inf (all c12 _), fun _ => real_of_abs_lt_inf (all c13 _),
    fun _ => real_of_abs_lt_inf (all c14 _), fun _ => real_of_abs_lt_inf (all c15 _),
    fun k e => range_of_cmp (all c16 (ix2 k e)),
    fun c => slice_col0_apply a3 _ _ c ▸ range_of_cmp (all c17 (ix1 c)),
    fun _ => nonneg_of_oge_zero (all c18 _), fun _ => nonneg_of_oge_zero (all c19 _)⟩

end Cert.Proof.PreDecode

end
-- ==== Proof.lean ====
import proofs.«410350_j46755013984839_3_alg».proof.Defs
import proofs.«410350_j46755013984839_3_alg».proof.Proof.Gen.Kernel
import proofs.«410350_j46755013984839_3_alg».proof.Proof.Gen.KernelIdeal
import proofs.«410350_j46755013984839_3_alg».proof.Proof.Gen.ReferenceIdeal
import proofs.«410350_j46755013984839_3_alg».proof.Proof.Gen.Pre_finite_inputs
import proofs.«410350_j46755013984839_3_alg».proof.Proof.RefGen
import proofs.«410350_j46755013984839_3_alg».proof.Proof.KB.Run
import proofs.«410350_j46755013984839_3_alg».proof.Proof.KI.Run
import proofs.«410350_j46755013984839_3_alg».proof.Proof.KI.KValue
import proofs.«410350_j46755013984839_3_alg».proof.Proof.Ref.RValue
import proofs.«410350_j46755013984839_3_alg».proof.Proof.Alg.Final
import proofs.«410350_j46755013984839_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

theorem frame_k : Cert.frame_Kernel (hKernel := Cert.Kernel.Gen.facts) (hPre_finite_inputs := Cert.Pre_finite_inputs.Gen.facts) :=
  fun m ρ _ => Cert.Kernel.Hand.run_post m ρ fun _ h c => by and_intros <;> exact Cert.Kernel.Hand.kept m h c _ (by decide)

theorem frame_ki : Cert.frame_KernelIdeal (hKernelIdeal := Cert.KernelIdeal.Gen.facts) (hPre_finite_inputs := Cert.Pre_finite_inputs.Gen.facts) :=
  fun m ρ _ => Cert.KernelIdeal.Hand.run_post m ρ fun _ h c => by and_intros <;> exact Cert.KernelIdeal.Hand.kept m h c _ (by decide)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

set_option maxRecDepth 100000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.X9 m c (Proc.devRef .tc Cert.KernelIdeal.main_v90),
    Cert.KernelIdeal.Hand.run_post m ρ fun _ h c => by
      refine ⟨h c _ (Cert.KernelIdeal.Hand.mem_uc Cert.KernelIdeal.main_v90 (by decide)), ?_⟩
      and_intros <;> exact Cert.KernelIdeal.Hand.kept m h c _ (by decide), ?_⟩
  refine (θ_run Cert.ReferenceIdeal.defs _ _).mono (fun _ h c => ⟨(h c).1.trans ?_, (h c).2⟩)
    (Cert.ReferenceIdeal.Value.run (F := Ideal) m' ρ')
  funext j
  obtain ⟨n, q, rfl⟩ : ∃ (n : Fin 8192) (q : Fin 2), j = ix2 n q := ⟨j 0, j 1, eq_ix2 j⟩
  refine (Cert.ReferenceIdeal.RefValue.res_value m' c n q).trans ?_
  refine Eq.trans ?_ (Cert.KernelIdeal.Hand.result_value m c n q).symm
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  have hadm := Cert.Proof.PreDecode.admissible_of_pre _ _ _ _ _ _ _ _ _ _ _ _ _ _ _ _ _ _ (hpre c)
  exact (congrFun (congrFun (Cert.Spec.outK_eq_outR hadm) n) q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
